-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64x64 : Shape := ⟨2, ![64, 64]⟩
abbrev S64x1 : Shape := ⟨2, ![64, 1]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x64 .f32) (main_arg5 : FVec F S64x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  main_v28

def fn {F : FTy → Type} [FloatOps F] (main_arg0 : FVec F S100000x128 .f32) (main_arg1 : FVec F S128x64 .f32) (main_arg2 : FVec F S128x64 .f32) (main_arg3 : FVec F S64x64 .f32) (main_arg4 : FVec F S64x64 .f32) (main_arg5 : FVec F S64x1 .f32) (main_arg6 : IVec S1600000 32) (main_arg7 : IVec S1600000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S100000x128 : Shape := ⟨2, ![100000, 128]⟩
abbrev S128x64 : Shape := ⟨2, ![128, 64]⟩
abbrev S64x64 : Shape := ⟨2, ![64, 64]⟩
abbrev S64x1 : Shape := ⟨2, ![64, 1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩
abbrev S1024x1 : Shape := ⟨2, ![1024, 1]⟩
abbrev S2000x64 : Shape := ⟨2, ![2000, 64]⟩
abbrev S2000x1 : Shape := ⟨2, ![2000, 1]⟩
abbrev S1024x64 : Shape := ⟨2, ![1024, 64]⟩
abbrev S2000x1024 : Shape := ⟨2, ![2000, 1024]⟩
abbrev S1000x1 : Shape := ⟨2, ![1000, 1]⟩

abbrev nBuf : Space → Nat
  | .hbm => 50
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S128x64, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S1600000, .i32⟩
  | .hbm, ⟨7, _⟩ => ⟨S1600000, .i32⟩
  | .hbm, ⟨8, _⟩ => ⟨S100000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S100000x1, .f32⟩
  | .hbm, ⟨16, _⟩ => ⟨S100000x128, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .bf16⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x64, .f32⟩
  | .hbm, ⟨32, _⟩ => ⟨S100000x64, .bf16⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .bf16⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x1, .i32⟩
  | .hbm, ⟨48, _⟩ => ⟨S1024x1, .f32⟩
  | .hbm, ⟨49, _⟩ => ⟨S1000x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x64, .f32⟩
  | .local _ .vmem, ⟨7, _⟩ => ⟨S128x64, .f32⟩
  | .local _ .vmem, ⟨8, _⟩ => ⟨S4000x64, .f32⟩
  | .local _ .vmem, ⟨9, _⟩ => ⟨S4000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x1, .f32⟩
  | .local _ .vmem, ⟨15, _⟩ => ⟨S2000x1, .f32⟩
  | .local _ .vmem, ⟨16, _⟩ => ⟨S2000x1, .i32⟩
  | .local _ .vmem, ⟨17, _⟩ => ⟨S2000x1, .i32⟩
  | .local _ .vmem, ⟨18, _⟩ => ⟨S64x64, .f32⟩
  | .local _ .vmem, ⟨19, _⟩ => ⟨S64x64, .f32⟩
  | .local _ .vmem, ⟨20, _⟩ => ⟨S64x1, .f32⟩
  | .local _ .vmem, ⟨21, _⟩ => ⟨S1024x1, .f32⟩
  | .local _ .vmem, ⟨22, _⟩ => ⟨S1024x64, .f32⟩
  | .local _ .vmem, ⟨23, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v46 : BitVec 1 := Scalar.cmpi .eq arg0 c49_i32
  let v47 : BitVec 32 := Scalar.extui v46
  let c0_i32_26 : BitVec 32 := 0#32
  let v48 : BitVec 1 := Scalar.cmpi .ne v47 c0_i32_26
  v48

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  iota_S2000x1024_d1_w32 : S2000x1024.Iotas .tc 32 [1]
  broadcasts_S2000x1_S2000x1024 : S2000x1.Broadcasts S2000x1024
  natLt_1_32 : 1 < 32
  broadcasts_S1024x1_S1024x64 : S1024x1.Broadcasts S1024x64
  inb_S64x1_S64x1_0_0 : ∀ a, (![0, 0] : Fin 2 → Nat) a + S64x1.size a ≤ S64x1.size a
  h_S64x1 : 0 < S64x1.numel
  slices_S1024x1_S1000x1_0_0 : S1024x1.Slices ![0, 0] S1000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  dot_S2000x1024_S2000x64_S1024x64_0_0_1_1_n_n_wf : DotDims.WF S2000x1024 S2000x64 S1024x64 [0] [0] [1] [1] [] []
  dot_S2000x1024_S2000x1_S1024x1_0_0_1_1_n_n_wf : DotDims.WF S2000x1024 S2000x1 S1024x1 [0] [0] [1] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .i32 = 32 ∨ (Rect.block (s := S100000x1) S2000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S1024x1.size a
  hwx1_7 : ∀ i : grid1.Coords, EltTy.bits .f32 = 32 ∨ (Rect.block (s := S1024x1) S1024x1.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x1024_S2000x64_S1024x64_0_0_1_1_n_n : DotDims S2000x1024 S2000x64 S1024x64 where
  lhsContracting := [0]
  rhsContracting := [0]
  lhsNonContracting := [1]
  rhsNonContracting := [1]
  lhsBatch := []
  rhsBatch := []
  wf := dot_S2000x1024_S2000x64_S1024x64_0_0_1_1_n_n_wf
def dot_S2000x1024_S2000x1_S1024x1_0_0_1_1_n_n : DotDims S2000x1024 S2000x1 S1024x1 where
  lhsContracting := [0]
  rhsContracting := [0]
  lhsNonContracting := [1]
  rhsNonContracting := [1]
  lhsBatch := []
  rhsBatch := []
  wf := dot_S2000x1024_S2000x1_S1024x1_0_0_1_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1024x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S128x64 : Shape := ⟨2, ![128, 64]⟩
abbrev S64x64 : Shape := ⟨2, ![64, 64]⟩
abbrev S64x1 : Shape := ⟨2, ![64, 1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S1600000x64 : Shape := ⟨2, ![1600000, 64]⟩
abbrev S1000x64 : Shape := ⟨2, ![1000, 64]⟩
abbrev S1000 : Shape := ⟨1, ![1000]⟩
abbrev S1000x1 : Shape := ⟨2, ![1000, 1]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S128x64, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S1600000, .i32⟩
  | .hbm, ⟨7, _⟩ => ⟨S1600000, .i32⟩
  | .hbm, ⟨8, _⟩ => ⟨S100000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S1000x64, .f32⟩
  | .hbm, ⟨70, _⟩ => ⟨S100000x1, .i32⟩
  | .hbm, ⟨71, _⟩ => ⟨S1000x64, .f32⟩
  | .hbm, ⟨72, _⟩ => ⟨S_, .f32⟩
  | .hbm, ⟨73, _⟩ => ⟨S100000, .f32⟩
  | .hbm, ⟨74, _⟩ => ⟨S_, .f32⟩
  | .hbm, ⟨75, _⟩ => ⟨S1000, .f32⟩
  | .hbm, ⟨76, _⟩ => ⟨S100000x1, .i32⟩
  | .hbm, ⟨77, _⟩ => ⟨S1000, .f32⟩
  | .hbm, ⟨78, _⟩ => ⟨S_, .f32⟩
  | .hbm, ⟨79, _⟩ => ⟨S1000, .f32⟩
  | .hbm, ⟨80, _⟩ => ⟨S1000, .f32⟩
  | .hbm, ⟨81, _⟩ => ⟨S1000x1, .f32⟩
  | .hbm, ⟨82, _⟩ => ⟨S1000x64, .f32⟩
  | .hbm, ⟨83, _⟩ => ⟨S1000x64, .f32⟩
  | .hbm, ⟨84, _⟩ => ⟨S1000x1, .f32⟩
  | .hbm, ⟨85, _⟩ => ⟨S1000x1, .f32⟩
  | .hbm, ⟨86, _⟩ => ⟨S1000x1, .f32⟩
  | .hbm, ⟨87, _⟩ => ⟨S_, .f32⟩
  | .hbm, ⟨88, _⟩ => ⟨S1000x1, .f32⟩
  | .hbm, ⟨89, _⟩ => ⟨S1000x1, .f32⟩
  | .hbm, ⟨90, _⟩ => ⟨S_, .f32⟩
  | .hbm, ⟨91, _⟩ => ⟨S1000x1, .f32⟩
  | .hbm, ⟨92, _⟩ => ⟨S1000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩
abbrev main_cst_15 : Ref sig .tc := ⟨.hbm, 90, rfl⟩
abbrev main_v62 : Ref sig .tc := ⟨.hbm, 91, rfl⟩
abbrev main_v63 : Ref sig .tc := ⟨.hbm, 92, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S1000x64 : S_.BroadcastsInDim S1000x64 (![] : Fin 0 → Fin S1000x64.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S_S1000x1 : S_.BroadcastsInDim S1000x1 (![] : Fin 0 → Fin S1000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x1_S1000x1_1_0_0_1_n_n_wf : DotDims.WF S1000x64 S64x1 S1000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

class Facts : Prop extends Facts₀ where

variable [Facts]
-- ==== Proof.KIRegion0.lean ====
import proofs.«418009_j9234179686415_3_alg».proof.Proof.Gen.KernelIdeal.Launch
import proofs.«418009_j9234179686415_3_alg».proof.Proof.Gen.KernelIdeal.Skeleton
import proofs.«418009_j9234179686415_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem offs_zero : (![0, 0] : Fin 2 → ℕ) = fun _ => 0 := by
  funext a; fin_cases a <;> rfl

abbrev rX : Rect S4000x128 := Rect.unit (s := S4000x128) ![0, 0] S4000x128.size inb_S4000x128_S4000x128_0_0
abbrev rD : Rect S4000x1 := Rect.unit (s := S4000x1) ![0, 0] S4000x1.size inb_S4000x1_S4000x1_0_0
abbrev rW : Rect S128x64 := Rect.unit (s := S128x64) ![0, 0] S128x64.size inb_S128x64_S128x64_0_0
abbrev rO : Rect S4000x64 := Rect.unit (s := S4000x64) ![0, 0] S4000x64.size inb_S4000x64_S4000x64_0_0

def out0_5 (x0 x1 : Vec F S4000x128 .f32) (x2 : Vec F S4000x1 .f32) (x3 x4 : Vec F S128x64 .f32) : Vec F S4000x64 .f32 :=
  View.canon [⟨rO, k0_pay1 (View.ld x0 rX) (View.ld x1 rX) (View.ld x2 rD) (View.ld x3 rW) (View.ld x4 rW)⟩]

/-- Every load and the one store go through the whole block, so the output block is the payload of the five input blocks. -/
theorem out0_5_eq (x0 x1 : Vec F S4000x128 .f32) (x2 : Vec F S4000x1 .f32) (x3 x4 : Vec F S128x64 .f32) :
    out0_5 x0 x1 x2 x3 x4 = k0_pay1 x0 x1 x2 x3 x4 := by
  unfold out0_5
  rw [View.canon_unit_zero (S := S4000x64) offs_zero inb_S4000x64_S4000x64_0_0,
    View.ld_unit_zero (S := S4000x128) offs_zero inb_S4000x128_S4000x128_0_0 x0,
    View.ld_unit_zero (S := S4000x128) offs_zero inb_S4000x128_S4000x128_0_0 x1,
    View.ld_unit_zero (S := S4000x1) offs_zero inb_S4000x1_S4000x1_0_0 x2,
    View.ld_unit_zero (S := S128x64) offs_zero inb_S128x64_S128x64_0_0 x3,
    View.ld_unit_zero (S := S128x64) offs_zero inb_S128x64_S128x64_0_0 x4]

set_option maxHeartbeats 1000000 in
/-- One store covers the output block, so what the body leaves there is that store's payload, whatever was there before. -/
theorem sound_kernel0 (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S4000x1 .f32) (harg3 : arg3.IsWhole) (arg4 : Memref sig .tc .vmem S128x64 .f32) (harg4 : arg4.IsWhole)
    (arg5 : Memref sig .tc .vmem S128x64 .f32) (harg5 : arg5.IsWhole) (arg6 : Memref sig .tc .vmem S4000x64 .f32) (harg6 : arg6.IsWhole)
    (x0 x1 : Vec F S4000x128 .f32) (x2 : Vec F S4000x1 .f32) (x3 x4 : Vec F S128x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__sage_layer1_kernel i arg1 harg1 arg2 harg2 arg3 harg3 arg4 harg4 arg5 harg5 arg6 harg6) K := by
  simp only [cc0__sage_layer1_kernel_eq_skeleton]; unfold cc0__sage_layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ fun y =>
    ⟨_, List.mem_singleton_self _, View.mem_set_unit_zero (S := S4000x64) offs_zero inb_S4000x64_S4000x64_0_0 y⟩

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

theorem before0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t)
      ∧ (∀ d, (dat0 V c).before 4 t d = iblk0 V c 4 t) := by
  refine ⟨?_, ?_, ?_, ?_, ?_⟩ <;>
    exact fun d => (dat0 V c).before_in_eq_fetched _ rfl (fun _ => rfl) (fun _ _ _ => rfl) (fun _ => rfl) t d

theorem after0 (c : Dev nD) (t : Fin cfg0.N) :
    (dat0 V c).after 0 t = iblk0 V c 0 t ∧ (dat0 V c).after 1 t = iblk0 V c 1 t ∧ (dat0 V c).after 2 t = iblk0 V c 2 t
      ∧ (dat0 V c).after 3 t = iblk0 V c 3 t ∧ (dat0 V c).after 4 t = iblk0 V c 4 t := by
  refine ⟨?_, ?_, ?_, ?_, ?_⟩ <;> dsimp only [dat0]

theorem body_obligation0 (c : Dev nD) : BodyObligation (dat0 (F := F) V c) (defs₀ (F := F)) Variants.none () Set.univ := fun t => by
  obtain ⟨b0, b1, b2, b3, b4⟩ := before0 V c t
  obtain ⟨a0, a1, a2, a3, a4⟩ := after0 V c t
  rw [bigSep_W0, bigSep_W0]
  simp only [b0, b1, b2, b3, b4]
  rw [show (dat0 V c).Φ t.succ = (dat0 V c).Φ t.castSucc from rfl,
    show (dat0 V c).owesAt () t.succ = (dat0 V c).owesAt () t.castSucc from rfl, a0, a1, a2, a3, a4, after0_5]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Region0

end
-- ==== Proof.KIRegion1RunA.lean ====
import proofs.«418009_j9234179686415_3_alg».proof.Proof.Gen.KernelIdeal.Launch
import proofs.«418009_j9234179686415_3_alg».proof.Proof.Gen.KernelIdeal.Skeleton
import proofs.«418009_j9234179686415_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 50 = 0 :=
  (by decide +kernel : ∀ t : Fin grid1.N, cond1_0 (grid1.coords t) ↔ t.val % 50 = 0)

abbrev cond1_1 (i : grid1.Coords) : Prop := k1_cond2 i = 1#1

theorem hcond1_1 : ∀ t : Fin cfg1.N, cond1_1 (grid1.coords t) ↔ t.val % 50 = 49 :=
  (by decide +kernel : ∀ t : Fin grid1.N, cond1_1 (grid1.coords t) ↔ t.val % 50 = 49)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel

theorem idleAt1_7 : ∀ t : Fin cfg1.N, ¬cond1_1 (grid1.coords t) → cfg1.idle 7 (grid1.coords t) = true := by decide +kernel

theorem noFlush1_7 : ∀ t : Fin cfg1.N, ¬cond1_1 (grid1.coords t) → (cfg1.win 7).flush t = false := by decide +kernel

theorem liveAt1_7 : ∀ t : Fin cfg1.N, cond1_1 (grid1.coords t) → cfg1.idle 7 (grid1.coords t) = false := by decide +kernel

abbrev VO1_7 : View sig .tc .vmem S1024x1 .f32 := (Memref.whole cc1_stg7_0 : Memref sig .tc .vmem S1024x1 .f32).view

abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)

abbrev scM1_0 : Memref sig .tc .vmem S1024x64 .f32 := Memref.whole cc1_scratch0

abbrev scM1_1 : Memref sig .tc .vmem S1024x1 .f32 := Memref.whole cc1_scratch1

abbrev VS1_0 : View sig .tc .vmem S1024x64 .f32 := scM1_0.view
abbrev VS1_1 : View sig .tc .vmem S1024x1 .f32 := scM1_1.view

set_option maxHeartbeats 4000000 in

noncomputable def kernelRun1_A (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S2000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i)
    (x0 : Vec F S2000x64 .f32) (x1 : Vec F S2000x64 .f32) (x2 : Vec F S2000x1 .f32) (x3 : Vec F S2000x1 .i32) (x4 : Vec F S64x64 .f32) (x5 : Vec F S64x64 .f32) (x6 : Vec F S64x1 .f32) :
    Σ' (L7 : List (View.Piece (Elt F) S1024x1 .f32)) (LS0 : List (View.Piece (Elt F) S1024x64 .f32)), { LS1 : List (View.Piece (Elt F) S1024x1 .f32) //
      ∀ (xi7 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__sage2_readout_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc1__sage2_readout_kernel_eq_skeleton]; unfold cc1__sage2_readout_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Region1

end
-- ==== Proof.KIRegion1RunB.lean ====
import proofs.«418009_j9234179686415_3_alg».proof.Proof.KIRegion1RunA

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in

noncomputable def kernelRun1_B (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S2000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : ¬cond1_1 i)
    (x0 : Vec F S2000x64 .f32) (x1 : Vec F S2000x64 .f32) (x2 : Vec F S2000x1 .f32) (x3 : Vec F S2000x1 .i32) (x4 : Vec F S64x64 .f32) (x5 : Vec F S64x64 .f32) (x6 : Vec F S64x1 .f32) (xs0 : Vec F S1024x64 .f32) (xs1 : Vec F S1024x1 .f32) :
    Σ' (L7 : List (View.Piece (Elt F) S1024x1 .f32)) (LS0 : List (View.Piece (Elt F) S1024x64 .f32)), { LS1 : List (View.Piece (Elt F) S1024x1 .f32) //
      ∀ (xi7 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__sage2_readout_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc1__sage2_readout_kernel_eq_skeleton]; unfold cc1__sage2_readout_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Region1

end
-- ==== Proof.KIRegion1RunC.lean ====
import proofs.«418009_j9234179686415_3_alg».proof.Proof.KIRegion1RunB

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in

noncomputable def kernelRun1_C (c : Dev nD) (i : grid1.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S2000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i)
    (x0 : Vec F S2000x64 .f32) (x1 : Vec F S2000x64 .f32) (x2 : Vec F S2000x1 .f32) (x3 : Vec F S2000x1 .i32) (x4 : Vec F S64x64 .f32) (x5 : Vec F S64x64 .f32) (x6 : Vec F S64x1 .f32) (xs0 : Vec F S1024x64 .f32) (xs1 : Vec F S1024x1 .f32) :
    Σ' (L7 : List (View.Piece (Elt F) S1024x1 .f32)) (LS0 : List (View.Piece (Elt F) S1024x64 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__sage2_readout_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__sage2_readout_kernel_eq_skeleton]; unfold cc1__sage2_readout_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelIdeal.Region1

end
-- ==== Proof.KIRegion1.lean ====
import proofs.«418009_j9234179686415_3_alg».proof.Proof.KIRegion1RunC
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The memrefs one call of the body is given, each whole, and the seven input blocks it reads. -/
structure Args (F : FTy → Type) where
  a1 : Memref sig .tc .vmem S2000x64 .f32
  h1 : a1.IsWhole
  a2 : Memref sig .tc .vmem S2000x64 .f32
  h2 : a2.IsWhole
  a3 : Memref sig .tc .vmem S2000x1 .f32
  h3 : a3.IsWhole
  a4 : Memref sig .tc .vmem S2000x1 .i32
  h4 : a4.IsWhole
  a5 : Memref sig .tc .vmem S64x64 .f32
  h5 : a5.IsWhole
  a6 : Memref sig .tc .vmem S64x64 .f32
  h6 : a6.IsWhole
  a7 : Memref sig .tc .vmem S64x1 .f32
  h7 : a7.IsWhole
  a8 : Memref sig .tc .vmem S1024x1 .f32
  h8 : a8.IsWhole
  a9 : Memref sig .tc .vmem S1024x64 .f32
  h9 : a9.IsWhole
  a10 : Memref sig .tc .vmem S1024x1 .f32
  h10 : a10.IsWhole
  x0 : Vec F S2000x64 .f32
  x1 : Vec F S2000x64 .f32
  x2 : Vec F S2000x1 .f32
  x3 : Vec F S2000x1 .i32
  x4 : Vec F S64x64 .f32
  x5 : Vec F S64x64 .f32
  x6 : Vec F S64x1 .f32

section Call

variable (c : Dev nD) (i : grid1.Coords) (p : Args F)

def runA (hc0 : cond1_0 i) (hc1 : ¬cond1_1 i) :=
  kernelRun1_A c i p.a1 p.h1 p.a2 p.h2 p.a3 p.h3 p.a4 p.h4 p.a5 p.h5 p.a6 p.h6 p.a7 p.h7 p.a8 p.h8 p.a9 p.h9 p.a10 p.h10 hc0 hc1 p.x0 p.x1 p.x2 p.x3 p.x4 p.x5 p.x6

def runB (hc0 : ¬cond1_0 i) (hc1 : ¬cond1_1 i) (xs0 : Vec F S1024x64 .f32) (xs1 : Vec F S1024x1 .f32) :=
  kernelRun1_B c i p.a1 p.h1 p.a2 p.h2 p.a3 p.h3 p.a4 p.h4 p.a5 p.h5 p.a6 p.h6 p.a7 p.h7 p.a8 p.h8 p.a9 p.h9 p.a10 p.h10 hc0 hc1 p.x0 p.x1 p.x2 p.x3 p.x4 p.x5 p.x6 xs0 xs1

def runC (hc0 : ¬cond1_0 i) (hc1 : cond1_1 i) (xs0 : Vec F S1024x64 .f32) (xs1 : Vec F S1024x1 .f32) :=
  kernelRun1_C c i p.a1 p.h1 p.a2 p.h2 p.a3 p.h3 p.a4 p.h4 p.a5 p.h5 p.a6 p.h6 p.a7 p.h7 p.a8 p.h8 p.a9 p.h9 p.a10 p.h10 hc0 hc1 p.x0 p.x1 p.x2 p.x3 p.x4 p.x5 p.x6 xs0 xs1

/-- What a list of stores leaves in a buffer, read back through the view `v`. -/
def rd {S : Shape} {e : EltTy} (v : View sig .tc .vmem S e) (L : List (View.Piece (Elt F) S e)) : Vec F S e :=
  v.read (Elt F) (v.writes (Elt F) v.junk L)

theorem covA0 (hc0 : cond1_0 i) (hc1 : ¬cond1_1 i) (y : S1024x64.Idx) : ∃ pc ∈ (runA c i p hc0 hc1).2.1, y ∈ pc.1.set :=
  View.cover_of_tiledL _ S1024x64.size (by sl_kernel_rfl) y

theorem covA1 (hc0 : cond1_0 i) (hc1 : ¬cond1_1 i) (y : S1024x1.Idx) : ∃ pc ∈ (runA c i p hc0 hc1).2.2.1, y ∈ pc.1.set :=
  View.cover_of_tiledL _ S1024x1.size (by sl_kernel_rfl) y

theorem covB0 (hc0 : ¬cond1_0 i) (hc1 : ¬cond1_1 i) (xs0 : Vec F S1024x64 .f32) (xs1 : Vec F S1024x1 .f32) (y : S1024x64.Idx) :
    ∃ pc ∈ (runB c i p hc0 hc1 xs0 xs1).2.1, y ∈ pc.1.set :=
  View.cover_of_tiledL _ S1024x64.size (by sl_kernel_rfl) y

theorem covB1 (hc0 : ¬cond1_0 i) (hc1 : ¬cond1_1 i) (xs0 : Vec F S1024x64 .f32) (xs1 : Vec F S1024x1 .f32) (y : S1024x1.Idx) :
    ∃ pc ∈ (runB c i p hc0 hc1 xs0 xs1).2.2.1, y ∈ pc.1.set :=
  View.cover_of_tiledL _ S1024x1.size (by sl_kernel_rfl) y

theorem covC0 (hc0 : ¬cond1_0 i) (hc1 : cond1_1 i) (xs0 : Vec F S1024x64 .f32) (xs1 : Vec F S1024x1 .f32) (y : S1024x64.Idx) :
    ∃ pc ∈ (runC c i p hc0 hc1 xs0 xs1).2.1, y ∈ pc.1.set :=
  View.cover_of_tiledL _ S1024x64.size (by sl_kernel_rfl) y

theorem covC1 (hc0 : ¬cond1_0 i) (hc1 : cond1_1 i) (xs0 : Vec F S1024x64 .f32) (xs1 : Vec F S1024x1 .f32) (y : S1024x1.Idx) :
    ∃ pc ∈ (runC c i p hc0 hc1 xs0 xs1).2.2.1, y ∈ pc.1.set :=
  View.cover_of_tiledL _ S1024x1.size (by sl_kernel_rfl) y

theorem covC7 (hc0 : ¬cond1_0 i) (hc1 : cond1_1 i) (xs0 : Vec F S1024x64 .f32) (xs1 : Vec F S1024x1 .f32) (y : S1024x1.Idx) :
    ∃ pc ∈ (runC c i p hc0 hc1 xs0 xs1).1, y ∈ pc.1.set :=
  View.cover_of_tiledL _ S1024x1.size (by sl_kernel_rfl) y

theorem hz2 : (![0, 0] : Fin 2 → Nat) = fun _ => 0 := funext fun a => by fin_cases a <;> rfl

/-- Each run's last store into an accumulator covers it: the accumulator ends at that store's value. -/
theorem vals :
    (∀ (hc0 : cond1_0 i) (hc1 : ¬cond1_1 i),
      rd VS1_0 (runA c i p hc0 hc1).2.1 = k1_pay1 (k1_pay7 p.x0 p.x1 p.x2 p.x4 p.x5 p.x3 k1_pay4)
      ∧ rd VS1_1 (runA c i p hc0 hc1).2.2.1 = k1_pay2 (k1_pay6 p.x3) k1_pay5)
    ∧ (∀ (hc0 : ¬cond1_0 i) (hc1 : ¬cond1_1 i) (xs0 : Vec F S1024x64 .f32) (xs1 : Vec F S1024x1 .f32),
      rd VS1_0 (runB c i p hc0 hc1 xs0 xs1).2.1 = k1_pay1 (k1_pay7 p.x0 p.x1 p.x2 p.x4 p.x5 p.x3 xs0)
      ∧ rd VS1_1 (runB c i p hc0 hc1 xs0 xs1).2.2.1 = k1_pay2 (k1_pay6 p.x3) xs1)
    ∧ ∀ (hc0 : ¬cond1_0 i) (hc1 : cond1_1 i) (xs0 : Vec F S1024x64 .f32) (xs1 : Vec F S1024x1 .f32),
      rd VS1_0 (runC c i p hc0 hc1 xs0 xs1).2.1 = k1_pay1 (k1_pay7 p.x0 p.x1 p.x2 p.x4 p.x5 p.x3 xs0)
      ∧ rd VS1_1 (runC c i p hc0 hc1 xs0 xs1).2.2.1 = k1_pay2 (k1_pay6 p.x3) xs1 := by
  refine ⟨fun hc0 hc1 => ⟨?_, ?_⟩, fun hc0 hc1 xs0 xs1 => ⟨?_, ?_⟩, fun hc0 hc1 xs0 xs1 => ⟨?_, ?_⟩⟩ <;>
  · unfold rd
    first
      | rw [View.read_writes_eq_canon _ _ _ (covA0 c i p hc0 hc1)]; unfold runA kernelRun1_A
      | rw [View.read_writes_eq_canon _ _ _ (covA1 c i p hc0 hc1)]; unfold runA kernelRun1_A
      | rw [View.read_writes_eq_canon _ _ _ (covB0 c i p hc0 hc1 xs0 xs1)]; unfold runB kernelRun1_B
      | rw [View.read_writes_eq_canon _ _ _ (covB1 c i p hc0 hc1 xs0 xs1)]; unfold runB kernelRun1_B
      | rw [View.read_writes_eq_canon _ _ _ (covC0 c i p hc0 hc1 xs0 xs1)]; unfold runC kernelRun1_C
      | rw [View.read_writes_eq_canon _ _ _ (covC1 c i p hc0 hc1 xs0 xs1)]; unfold runC kernelRun1_C
    dsimp only
    sl_unfold_words
    simp only [View.canon_cons_unit_zero (S := S1024x64) hz2, View.canon_cons_unit_zero (S := S1024x1) hz2, View.readCov_unit_zero (S := S1024x64) _ hz2, View.readCov_unit_zero (S := S1024x1) _ hz2, View.readAt_eq_ld, p.h1.read_unread, p.h2.read_unread, p.h3.read_unread, p.h4.read_unread, p.h5.read_unread, p.h6.read_unread, p.h7.read_unread, p.h9.read_unread, p.h10.read_unread, View.ld_unit_zero (S := S2000x64) hz2, View.ld_unit_zero (S := S2000x1) hz2, View.ld_unit_zero (S := S64x64) hz2, View.ld_unit_zero (S := S64x1) hz2, View.ld_unit_zero (S := S1024x64) hz2, View.ld_unit_zero (S := S1024x1) hz2]

theorem valC7 (hc0 : ¬cond1_0 i) (hc1 : cond1_1 i) (xs0 : Vec F S1024x64 .f32) (xs1 : Vec F S1024x1 .f32) :
    rd VO1_7 (runC c i p hc0 hc1 xs0 xs1).1 = k1_pay3 (rd VS1_0 (runC c i p hc0 hc1 xs0 xs1).2.1) (rd VS1_1 (runC c i p hc0 hc1 xs0 xs1).2.2.1) p.x6 := by
  rw [((vals c i p).2.2 hc0 hc1 xs0 xs1).1, ((vals c i p).2.2 hc0 hc1 xs0 xs1).2]
  unfold rd
  rw [View.read_writes_eq_canon _ _ _ (covC7 c i p hc0 hc1 xs0 xs1)]
  unfold runC kernelRun1_C
  dsimp only
  sl_unfold_words
  simp only [View.canon_cons_unit_zero (S := S1024x64) hz2, View.canon_cons_unit_zero (S := S1024x1) hz2, View.readCov_unit_zero (S := S1024x64) _ hz2, View.readCov_unit_zero (S := S1024x1) _ hz2, View.readAt_eq_ld, p.h1.read_unread, p.h2.read_unread, p.h3.read_unread, p.h4.read_unread, p.h5.read_unread, p.h6.read_unread, p.h7.read_unread, p.h9.read_unread, p.h10.read_unread, View.ld_unit_zero (S := S2000x64) hz2, View.ld_unit_zero (S := S2000x1) hz2, View.ld_unit_zero (S := S64x64) hz2, View.ld_unit_zero (S := S64x1) hz2, View.ld_unit_zero (S := S1024x64) hz2, View.ld_unit_zero (S := S1024x1) hz2]

/-- The three buffers a run leaves, read back: the output block, the feature sums, the node counts. -/
def rds {P : List (View.Piece (Elt F) S1024x1 .f32) → List (View.Piece (Elt F) S1024x64 .f32) → List (View.Piece (Elt F) S1024x1 .f32) → Prop}
    (r : Σ' (L7 : List (View.Piece (Elt F) S1024x1 .f32)) (LS0 : List (View.Piece (Elt F) S1024x64 .f32)), { LS1 : List (View.Piece (Elt F) S1024x1 .f32) // P L7 LS0 LS1 }) :
    Vec F S1024x1 .f32 × Vec F S1024x64 .f32 × Vec F S1024x1 .f32 :=
  (rd VO1_7 r.1, rd VS1_0 r.2.1, rd VS1_1 r.2.2.1)

end Call

theorem hcA0 (hn : 0 < cfg1.N) : cond1_0 (grid1.coords ⟨0, hn⟩) := (hcond1_0 ⟨0, hn⟩).mpr (Nat.zero_mod _)
theorem hcA1 (hn : 0 < cfg1.N) : ¬cond1_1 (grid1.coords ⟨0, hn⟩) := fun h => by
  have h' := (hcond1_1 ⟨0, hn⟩).mp h
  (try dsimp only at h'); omega
theorem hcS0 (n : ℕ) (hn : n + 1 < cfg1.N) : ¬cond1_0 (grid1.coords ⟨n + 1, hn⟩) := fun h => by
  have h' := (hcond1_0 ⟨n + 1, hn⟩).mp h
  have hN : n + 1 < 50 := lt_of_lt_of_eq hn (show cfg1.N = 50 from N_1)
  (try dsimp only at h'); omega

/-- The memrefs and blocks the body is called with at point `t`. -/
abbrev pt (c : Dev nD) (t : Fin cfg1.N) : Args F :=
  ⟨ms1_0 t, hs1_0 t, ms1_1 t, hs1_1 t, ms1_2 t, hs1_2 t, ms1_3 t, hs1_3 t, ms1_4 t, hs1_4 t, ms1_5 t, hs1_5 t, ms1_6 t, hs1_6 t, ms1_7 t, hs1_7 t, scM1_0, Memref.isWhole_whole _, scM1_1, Memref.isWhole_whole _, iblk1 V c 0 t, iblk1 V c 1 t, iblk1 V c 2 t, iblk1 V c 3 t, iblk1 V c 4 t, iblk1 V c 5 t, iblk1 V c 6 t⟩

def outsAt1 (c : Dev nD) : (n : ℕ) → n < cfg1.N → Vec F S1024x1 .f32 × Vec F S1024x64 .f32 × Vec F S1024x1 .f32
  | 0, hn => rds (runA c (grid1.coords ⟨0, hn⟩) (pt V c ⟨0, hn⟩) (hcA0 hn) (hcA1 hn))
  | n + 1, hn =>
    if h1 : (n + 1) % 50 = 49 then
      rds (runC c (grid1.coords ⟨n + 1, hn⟩) (pt V c ⟨n + 1, hn⟩) (hcS0 n hn) ((hcond1_1 ⟨n + 1, hn⟩).mpr h1) (outsAt1 c n (Nat.lt_of_succ_lt hn)).2.1 (outsAt1 c n (Nat.lt_of_succ_lt hn)).2.2)
    else
      rds (runB c (grid1.coords ⟨n + 1, hn⟩) (pt V c ⟨n + 1, hn⟩) (hcS0 n hn) (fun h => h1 ((hcond1_1 ⟨n + 1, hn⟩).mp h)) (outsAt1 c n (Nat.lt_of_succ_lt hn)).2.1 (outsAt1 c n (Nat.lt_of_succ_lt hn)).2.2)

theorem outsAt1_A (c : Dev nD) (t : Fin cfg1.N) (h0 : t.val % 50 = 0) (h1 : ¬t.val % 50 = 49) :
    outsAt1 V c t.val t.isLt = rds (runA c (grid1.coords t) (pt V c t) ((hcond1_0 t).mpr h0) (fun h => h1 ((hcond1_1 t).mp h))) := by
  obtain ⟨n, hn⟩ := t
  cases n with
  | zero => exact rfl
  | succ n => exact (by exfalso; have hN : n + 1 < 50 := lt_of_lt_of_eq hn (show cfg1.N = 50 from N_1); (try dsimp only at h0); omega)

theorem outsAt1_B (c : Dev nD) (t : Fin cfg1.N) (h0 : ¬t.val % 50 = 0) (h1 : ¬t.val % 50 = 49) :
    outsAt1 V c t.val t.isLt = rds (runB c (grid1.coords t) (pt V c t) (fun h => h0 ((hcond1_0 t).mp h)) (fun h => h1 ((hcond1_1 t).mp h)) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 50 = 0) (h1 : t.val % 50 = 49) :
    outsAt1 V c t.val t.isLt = rds (runC c (grid1.coords t) (pt V c t) (fun h => h0 ((hcond1_0 t).mp h)) ((hcond1_1 t).mpr h1) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-- The region's invariant with the two accumulators at `P`. -/
def Inv (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P) ∗ (∃ r, prngReg c r))

/-- The two accumulators at the feature sums and node counts `s`. -/
def Acc (c : Dev nD) (s : Vec F S1024x64 .f32 × Vec F S1024x1 .f32) : sProp 𝕄 :=
  iprop(owns (c : Thread nD τ) scM1_0 fullShare s.1 ∗ owns (c : Thread nD τ) scM1_1 fullShare s.2)

/-- The accumulators' part of the invariant can be taken out and any other put in its place. -/
theorem Inv_swap (c : Dev nD) (P : sProp 𝕄) : Inv c P ⊢ iprop(P ∗ ∀ Q, Q -∗ Inv c Q) := by
  unfold Inv
  iintro ⟨⟨HR0, HR1, HR2, HR3, HR4, HR5, HR6, HR7, HR8, HR9, HP⟩, Hg⟩
  isplitl [HP]; · iexact HP
  iintro %Q HQ
  iframe

theorem PhiA1_eq (c : Dev nD) :
    (Pipeline.ΦA spec1 c : sProp 𝕄) = Inv c iprop((∃ d, owns (c : Thread nD τ) scM1_0 fullShare d) ∗ (∃ d, owns (c : Thread nD τ) scM1_1 fullShare d)) := by
  unfold Pipeline.ΦA Inv; rw [scopedRest1_eq]; simp only [scM1_0, scM1_1, owns_whole]; try rfl

def PhiS (c : Dev nD) : (n : ℕ) → n ≤ cfg1.N → sProp 𝕄
  | 0, _ => Pipeline.ΦA spec1 c
  | n + 1, hn => Inv c (Acc c (outsAt1 V c n hn).2)

theorem PhiS_zero (c : Dev nD) (n : ℕ) (h : n ≤ cfg1.N) (hz : n = 0) : PhiS V c n h = Pipeline.ΦA spec1 c := by
  subst hz; rfl

theorem PhiS_pos (c : Dev nD) (n : ℕ) (h : n ≤ cfg1.N) (hz : n ≠ 0) :
    PhiS V c n h = Inv c (Acc c (outsAt1 V c (n - 1) (by omega)).2) := by
  cases n with
  | zero => exact absurd rfl hz
  | succ n => rfl

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem befores (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;>
    exact fun d => ((dat1 V c).before_in_eq_fetched _ rfl (fun _ => rfl) (fun _ _ _ => rfl) (fun t => by (first | rw [after1_0] | rw [after1_1] | rw [after1_2] | rw [after1_3] | rw [after1_4] | rw [after1_5] | rw [after1_6]); unfold Dat.blockOf iblk1; rw [A_eq1]; try rfl) t d).trans
      (by unfold Dat.fetched Dat.blockOf iblk1; rw [A_eq1]; try rfl)

theorem leaves (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t)
    ∧ (dat1 V c).leavesExact 5 t = owns (c : Thread nD τ) (ms1_5 t) fullShare (iblk1 V c 5 t)
    ∧ (dat1 V c).leavesExact 6 t = owns (c : Thread nD τ) (ms1_6 t) fullShare (iblk1 V c 6 t) := by
  refine ⟨?_, ?_, ?_, ?_, ?_, ?_, ?_⟩ <;> (unfold Dat.leavesExact; first | rw [liveAt1_0 t, after1_0] | rw [liveAt1_1 t, after1_1] | rw [liveAt1_2 t, after1_2] | rw [liveAt1_3 t, after1_3] | rw [liveAt1_4 t, after1_4] | rw [liveAt1_5 t, after1_5] | rw [liveAt1_6 t, after1_6])

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  obtain ⟨b0, b1, b2, b3, b4, b5, b6⟩ := befores V c t
  simp only [b0, b1, b2, b3, b4, b5, b6]
  rw [show (dat1 V c).owesAt () t.succ = (dat1 V c).owesAt () t.castSucc from rfl]
  rw [show (dat1 V c).Φ t.succ = Inv c (Acc c (outsAt1 V c t.val t.isLt).2) from rfl]
  obtain ⟨l0, l1, l2, l3, l4, l5, l6⟩ := leaves V c t
  rw [l0, l1, l2, l3, l4, l5, l6]
  have hN : t.val < 50 := lt_of_lt_of_eq t.isLt (show cfg1.N = 50 from N_1)
  by_cases h1 : t.val % 50 = 49
  · have h0 : ¬t.val % 50 = 0 := by omega
    have hz : t.val ≠ 0 := by omega
    rw [show (dat1 V c).leavesExact 7 t = owns (c : Thread nD τ) (ms1_7 t) fullShare ((dat1 V c).after 7 t) from by
      unfold Dat.leavesExact; rw [liveAt1_7 t ((hcond1_1 t).mpr h1)], after1_7]
    rw [outsAt1_C V c t h0 h1]
    rw [PhiS_castSucc V c t, PhiS_pos V c _ _ hz]
    unfold rds rd Acc; (try dsimp only)
    iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
    icases Inv_swap c _ $$ HI with ⟨⟨HS0, HS1⟩, HI⟩
    iapply ((runC c (grid1.coords t) (pt V c t) (fun h => h0 ((hcond1_0 t).mp h)) ((hcond1_1 t).mpr h1) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, ⟨%es0, HS0⟩, ⟨%es1, HS1⟩⟩
    isplitl [HI HS0 HS1]
    · iapply HI
      isplitl [HS0]
      · unfold owns; iexists _; isplitr
        swap; · iexact HS0
        ipureintro; exact View.read_writes_of_cover _ _ _ _ _ (covC0 c _ _ _ _ _ _)
      unfold owns; iexists _; isplitr
      swap; · iexact HS1
      ipureintro; exact View.read_writes_of_cover _ _ _ _ _ (covC1 c _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (covC7 c _ _ _ _ _ _)
  · rw [Dat.leavesExact_idle (dat1 V c) 7 t (idleAt1_7 t (fun h => h1 ((hcond1_1 t).mp h))) (noFlush1_7 t (fun h => h1 ((hcond1_1 t).mp h)))]
    by_cases h0 : t.val % 50 = 0
    · have hz : t.val = 0 := by omega
      rw [outsAt1_A V c t h0 h1]
      rw [PhiS_castSucc V c t, PhiS_zero V c _ _ hz, PhiA1_eq]
      unfold rds rd Acc; (try dsimp only)
      iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
      icases Inv_swap c _ $$ HI with ⟨⟨HS0, HS1⟩, HI⟩
      iapply ((runA c (grid1.coords t) (pt V c t) ((hcond1_0 t).mpr h0) (fun h => h1 ((hcond1_1 t).mp h))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HI HS0 HS1]
      · iapply HI
        isplitl [HS0]
        · unfold owns; iexists _; isplitr
          swap; · iexact HS0
          ipureintro; exact View.read_writes_of_cover _ _ _ _ _ (covA0 c _ _ _ _)
        unfold owns; iexists _; isplitr
        swap; · iexact HS1
        ipureintro; exact View.read_writes_of_cover _ _ _ _ _ (covA1 c _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hz : t.val ≠ 0 := by omega
      rw [outsAt1_B V c t h0 h1]
      rw [PhiS_castSucc V c t, PhiS_pos V c _ _ hz]
      unfold rds rd Acc; (try dsimp only)
      iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
      icases Inv_swap c _ $$ HI with ⟨⟨HS0, HS1⟩, HI⟩
      iapply ((runB c (grid1.coords t) (pt V c t) (fun h => h0 ((hcond1_0 t).mp h)) (fun h => h1 ((hcond1_1 t).mp h)) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HI HS0 HS1]
      · iapply HI
        isplitl [HS0]
        · unfold owns; iexists _; isplitr
          swap; · iexact HS0
          ipureintro; exact View.read_writes_of_cover _ _ _ _ _ (covB0 c _ _ _ _ _ _)
        unfold owns; iexists _; isplitr
        swap; · iexact HS1
        ipureintro; exact View.read_writes_of_cover _ _ _ _ _ (covB1 c _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation1 (c : Dev nD) : BodyObligation (dat1 (F := F) V c) (defs₀ (F := F)) Variants.none () Set.univ := fun t => by
  rw [bigSep_W1, bigSep_W1]
  exact sound_body V c t

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold Acc
  iintro HI
  icases Inv_swap c _ $$ HI with ⟨⟨HS0, HS1⟩, HI⟩
  iapply HI
  isplitl [HS0]; · iexists _; iexact HS0
  iexists _; iexact HS1

theorem hout1 (c : Dev nD) : (dat1 V c).Φ (Fin.last cfg1.N) ⊢ Pipeline.ΦA spec1 c :=
  Phi_out V c _ (by rw [Fin.val_last]; have : cfg1.N = 50 := N_1; omega)

theorem sc9_zero (c : Dev nD) (h : 0 < cfg1.N) :
    (outsAt1 V c 0 h).2.1 = k1_pay1 (k1_pay7 (iblk1 V c 0 ⟨0, h⟩) (iblk1 V c 1 ⟨0, h⟩) (iblk1 V c 2 ⟨0, h⟩) (iblk1 V c 4 ⟨0, h⟩) (iblk1 V c 5 ⟨0, h⟩) (iblk1 V c 3 ⟨0, h⟩) k1_pay4) := by
  rw [show outsAt1 V c 0 h = _ from outsAt1_A V c ⟨0, h⟩ (Nat.zero_mod _) (by show ¬0 % 50 = 49; decide)]; unfold rds; dsimp only
  exact ((vals c (grid1.coords ⟨0, h⟩) (pt V c ⟨0, h⟩)).1 _ _).1

theorem sc9_succ (c : Dev nD) (n : ℕ) (h : n + 1 < cfg1.N) :
    (outsAt1 V c (n + 1) h).2.1 = k1_pay1 (k1_pay7 (iblk1 V c 0 ⟨n + 1, h⟩) (iblk1 V c 1 ⟨n + 1, h⟩) (iblk1 V c 2 ⟨n + 1, h⟩) (iblk1 V c 4 ⟨n + 1, h⟩) (iblk1 V c 5 ⟨n + 1, h⟩) (iblk1 V c 3 ⟨n + 1, h⟩) (outsAt1 V c n (Nat.lt_of_succ_lt h)).2.1) := by
  have hN : n + 1 < 50 := lt_of_lt_of_eq h (show cfg1.N = 50 from N_1)
  have h0 : ¬(⟨n + 1, h⟩ : Fin cfg1.N).val % 50 = 0 := by show ¬(n + 1) % 50 = 0; omega
  by_cases h1 : (⟨n + 1, h⟩ : Fin cfg1.N).val % 50 = 49
  · rw [show outsAt1 V c (n + 1) h = _ from outsAt1_C V c ⟨n + 1, h⟩ h0 h1]; unfold rds; dsimp only
    exact ((vals c (grid1.coords ⟨n + 1, h⟩) (pt V c ⟨n + 1, h⟩)).2.2 _ _ _ _).1
  · rw [show outsAt1 V c (n + 1) h = _ from outsAt1_B V c ⟨n + 1, h⟩ h0 h1]; unfold rds; dsimp only
    exact ((vals c (grid1.coords ⟨n + 1, h⟩) (pt V c ⟨n + 1, h⟩)).2.1 _ _ _ _).1

theorem sc10_zero (c : Dev nD) (h : 0 < cfg1.N) :
    (outsAt1 V c 0 h).2.2 = k1_pay2 (k1_pay6 (iblk1 V c 3 ⟨0, h⟩)) k1_pay5 := by
  rw [show outsAt1 V c 0 h = _ from outsAt1_A V c ⟨0, h⟩ (Nat.zero_mod _) (by show ¬0 % 50 = 49; decide)]; unfold rds; dsimp only
  exact ((vals c (grid1.coords ⟨0, h⟩) (pt V c ⟨0, h⟩)).1 _ _).2

theorem sc10_succ (c : Dev nD) (n : ℕ) (h : n + 1 < cfg1.N) :
    (outsAt1 V c (n + 1) h).2.2 = k1_pay2 (k1_pay6 (iblk1 V c 3 ⟨n + 1, h⟩)) (outsAt1 V c n (Nat.lt_of_succ_lt h)).2.2 := by
  have hN : n + 1 < 50 := lt_of_lt_of_eq h (show cfg1.N = 50 from N_1)
  have h0 : ¬(⟨n + 1, h⟩ : Fin cfg1.N).val % 50 = 0 := by show ¬(n + 1) % 50 = 0; omega
  by_cases h1 : (⟨n + 1, h⟩ : Fin cfg1.N).val % 50 = 49
  · rw [show outsAt1 V c (n + 1) h = _ from outsAt1_C V c ⟨n + 1, h⟩ h0 h1]; unfold rds; dsimp only
    exact ((vals c (grid1.coords ⟨n + 1, h⟩) (pt V c ⟨n + 1, h⟩)).2.2 _ _ _ _).2
  · rw [show outsAt1 V c (n + 1) h = _ from outsAt1_B V c ⟨n + 1, h⟩ h0 h1]; unfold rds; dsimp only
    exact ((vals c (grid1.coords ⟨n + 1, h⟩) (pt V c ⟨n + 1, h⟩)).2.1 _ _ _ _).2

theorem out7_last (c : Dev nD) (h : 49 < cfg1.N) :
    (outsAt1 V c 49 h).1 = k1_pay3 (outsAt1 V c 49 h).2.1 (outsAt1 V c 49 h).2.2 (iblk1 V c 6 ⟨49, h⟩) := by
  rw [show outsAt1 V c 49 h = _ from outsAt1_C V c ⟨49, h⟩ (by show ¬49 % 50 = 0; decide) (by show 49 % 50 = 49; decide)]; unfold rds; dsimp only
  exact valC7 c (grid1.coords ⟨49, h⟩) (pt V c ⟨49, h⟩) _ _ _ _

end Cert.KernelIdeal.Region1

end
-- ==== Proof.KIRun.lean ====
import proofs.«418009_j9234179686415_3_alg».proof.Proof.Gen.KernelIdeal.Launch
import proofs.«418009_j9234179686415_3_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (Pipeline.UD sig nD τ) ℕ

variable (F) in
abbrev RefVal : Type :=
  (c : Dev nD) → (b : Ref sig .tc) → Buf (Elt F) ((c : Thread nD τ).loc b)

variable (F) in
/-- What the run needs of kernel call `p`'s proof data at entry contents `V`: the arrays are read off `V` and nothing is owed. -/
structure Region (p : Fin 2) where
  dat : RefVal F → (c : Dev nD) → Dat τ (Elt F) Unit ℕ (Pipeline.UD sig nD τ) ℕ (cfgs p) c
  hA : ∀ V c w, (dat V c).A w = V c (Pipeline.arrRef (cfgs p).spec w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA (cfgs p).spec c : sProp 𝕄) ⊢ (dat V c).Φ 0
  hout : ∀ V c, (dat V c).Φ (Fin.last (cfgs p).N) ⊢ (Pipeline.ΦA (cfgs p).spec c : sProp 𝕄)

abbrev 𝒱₀ : Variants := Variants.none
abbrev L : GSem nD τ sig → Finset Unit := fun _ => ∅
abbrev lv : GSem nD τ sig → Unit → ℕ := fun _ _ => 0

abbrev Rest (c : Dev nD) : sProp 𝕄 :=
  iprop((∃ r, prngReg c r) ∗ ∃ W, owes (c : Thread nD τ) (0 : CellTallies nD τ sig Unit) W)
abbrev E : Fin 3 → Dev nD → sProp 𝕄 := fun _ c => Rest (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Seg

variable (Rs : (p : Fin 2) → Region F p) (Vs : Fin 2 → Dev nD → Valuation τ sig (Elt F))

/-- Every call's proof data, at the call's entry contents. -/
def pdats (p : Fin 2) (c : Dev nD) : Dat τ (Elt F) Unit ℕ (Pipeline.UD sig nD τ) ℕ (Pipeline.pin (pcfgs (F := F)) Gen.adm p) c :=
  (Rs p).dat (fun c b => Vs p c b) c

set_option backward.isDefEq.respectTransparency.types false in
/-- Kernel call `p` takes the contents `Vs p` to any `Vout` that has the call's arrays as its write-backs leave them and agrees with `Vs p` elsewhere. -/
def reg (p : Fin 2) (ℓ : Pipeline.LaunchFacts (nD := nD) (τ := τ) cfgs p) (Vout : Dev nD → Valuation τ sig (Elt F))
    (hF : ∀ c w, (pdats Rs Vs p c).arrAt w (cfgs p).N = Vout c (Pipeline.arrRef (cfgs p).spec w))
    (hrest : ∀ c b, b ∉ Finset.univ.image (Pipeline.arrRef (cfgs p).spec) → Vout c b = Vs p c b) :
    RegionSeg (pcfgs (F := F)) Gen.adm (pdats Rs Vs) () defs₀ 𝒱₀ L lv p where
  win := ℓ.win.to₀
  block_pos := ℓ.block_pos
  stage_whole := ℓ.stage_whole
  K := PEmpty
  osem k := k.elim
  ho := Pipeline.OwnSemFacts.none _
  hbody c := ((Rs p).hbody _ c).loose
  hwaits := Pipeline.hwaits_of_owed_zero _ _ _ _ L lv p fun c t => (Rs p).howed _ c t
  pre c := iprop(StableHlo.held (c : Thread nD τ) (Pipeline.ucRefs τ sig) (Vs p c) ∗ Rest c)
  post c := iprop(StableHlo.held (c : Thread nD τ) (Pipeline.ucRefs τ sig) (Vout c) ∗ Rest c)
  X c := iprop(∃ r, prngReg c r)
  Y c := iprop(∃ r, prngReg c r)
  Z c := Pipeline.unscopedRest (Ix := Unit) (Name := ℕ) (U := Pipeline.UD sig nD τ) (Lvl := ℕ) (cfgs p).spec c (fun b => Vs p c b)
  hentry c := by
    rw [Pipeline.ownSems0_none]
    have hsplit := Pipeline.arrays_of_unscopedBufs (p := p) (pcfgs (F := F)) Gen.adm (pdats Rs Vs) ℓ.win ℓ.arr_whole c
      ((pdats Rs Vs p c).share_full fun w => (Rs p).hq _ c w) (fun b => Vs p c b) fun w => (Rs p).hA _ c w
    rw [Pipeline.unscopedBufs_held c (Vs p c)] at hsplit
    have ho : (pdats Rs Vs p c).owed 0 = 0 := (Rs p).howed _ c 0
    have hr : (pdats Rs Vs p c).recorded 0 = Set.univ := (Rs p).hrec _ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (hr ▸ Set.mem_univ _)
      iexact HO
    isplitl [Hp]; · iexact Hp
    iexact Hrest
  hin c := by
    refine BIBase.Entails.trans ?_ ((Rs p).hin _ c)
    unfold Pipeline.ΦA
    iintro ⟨Hp, -, Hr⟩
    isplitl [Hr]; · iexact Hr
    iexact Hp
  hout c := by
    rw [Pipeline.ownSems0_none]
    refine ((Rs p).hout _ c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := Pipeline.UD sig nD τ) (Lvl := ℕ)
      ℓ.win ℓ.arr_whole c (pdats Rs Vs) ((pdats Rs Vs p c).share_full fun w => (Rs p).hq _ c w)
      (fun b => Vs p c b) (fun b => Vout c b) ((pdats Rs Vs p c).arrAt · (cfgs p).N) (hF c) (hrest c)
    rw [Pipeline.unscopedBufs_held c (Vout c)] at hjoin
    have ho : (pdats Rs Vs p c).owed (Fin.last _) = 0 := (Rs p).howed _ c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

end Seg

variable (R0 : Region F 0) (R1 : Region F 1)
variable (m : (ℓ : Loc nD τ sig) → Buf (Elt F) ℓ) (ρ : Dev nD → PrngReg)

abbrev In0 : RefVal F := fun c b => Gen.V1 m c b

/-- After the first kernel call: its arrays at what its write-backs leave, the rest as entered. -/
def X1 (c : Dev nD) : Valuation τ sig (Elt F) :=
  Pipeline.withArrays spec0 c (Gen.V1 m c) fun w => (R0.dat (In0 m) c).arrAt w cfg0.N

def outsA : Gen.Outs (F := F) := fun _ r c => X1 R0 m c r

abbrev In1 : RefVal F := fun c b => Gen.V3 m (outsA R0 m) c b

def X3 (c : Dev nD) : Valuation τ sig (Elt F) :=
  Pipeline.withArrays spec1 c (Gen.V3 m (outsA R0 m) c) fun w => (R1.dat (In1 R0 m) c).arrAt w cfg1.N

/-- What the two calls leave in their result arrays: the first's after item 1, the second's after item 3. -/
def outs : Gen.Outs (F := F) := fun J => match J with
  | 4 => fun r c => X3 R0 R1 m c r
  | _ => fun r c => X1 R0 m c r

def Rs : (p : Fin 2) → Region F p
  | ⟨0, _⟩ => R0
  | ⟨1, _⟩ => R1

def Vs : Fin 2 → Dev nD → Valuation τ sig (Elt F)
  | ⟨0, _⟩ => Gen.V1 m
  | ⟨1, _⟩ => Gen.V3 m (outsA R0 m)

theorem X1_arr (c : Dev nD) (w : Fin cfg0.W) :
    X1 R0 m c (Proc.devRef .tc (Pipeline.arrRef spec0 w)) = (R0.dat (In0 m) c).arrAt w cfg0.N := by
  unfold X1; exact Pipeline.withArrays_arr spec0 launch0.win.arr_inj c _ _ w

theorem X3_arr (c : Dev nD) (w : Fin cfg1.W) :
    X3 R0 R1 m c (Proc.devRef .tc (Pipeline.arrRef spec1 w)) = (R1.dat (In1 R0 m) c).arrAt w cfg1.N := by
  unfold X3; exact Pipeline.withArrays_arr spec1 launch1.win.arr_inj c _ _ w

/-- An array a call only reads holds throughout what it held at entry. -/
theorem arr_in {p : Fin 2} (R : Region F p) (V : RefVal F) (c : Dev nD) (w : Fin (cfgs p).W) (hw : ((cfgs p).win w).isOut = false) (n : ℕ) :
    (R.dat V c).arrAt w n = V c (Pipeline.arrRef (cfgs p).spec w) :=
  ((R.dat V c).arrAt_in w hw n).trans (R.hA V c w)

theorem ins0 : ∀ w : Fin cfg0.W, w ≠ 5 → (cfg0.win w).isOut = false ∧ Pipeline.arrRef spec0 w ∉ ([main_v17] : List (Ref sig .tc)) := by decide
theorem ins1 : ∀ w : Fin cfg1.W, w ≠ 7 → (cfg1.win w).isOut = false ∧ Pipeline.arrRef spec1 w ∉ ([main_v31] : List (Ref sig .tc)) := by decide

theorem hF0 (c : Dev nD) (w : Fin cfg0.W) :
    (R0.dat (In0 m) c).arrAt w cfg0.N = Gen.V2 m (outs R0 R1 m) c (Pipeline.arrRef spec0 w) := by
  by_cases hw : w = 5
  · subst hw
    show _ = Function.update (Gen.V1 m c) main_v17 _ main_v17
    rw [Function.update_self]; exact (X1_arr R0 m c 5).symm
  · exact (arr_in R0 _ c w (ins0 w hw).1 _).trans (Gen.V2_of m (outs R0 R1 m) c _ (ins0 w hw).2).symm

theorem hF1 (c : Dev nD) (w : Fin cfg1.W) :
    (R1.dat (In1 R0 m) c).arrAt w cfg1.N = Gen.V4 m (outs R0 R1 m) c (Pipeline.arrRef spec1 w) := by
  by_cases hw : w = 7
  · subst hw
    show _ = Function.update (Gen.V3 m (outs R0 R1 m) c) main_v31 _ main_v31
    rw [Function.update_self]; exact (X3_arr R0 R1 m c 7).symm
  · exact (arr_in R1 _ c w (ins1 w hw).1 _).trans (Gen.V4_of m (outs R0 R1 m) c _ (ins1 w hw).2).symm

/-- @main's items on core `c`: three stretches of host operations and the two kernel calls, each call replacing its result array. -/
abbrev segs (c : Dev nD) : List (Seg (pcfgs (F := F)) Gen.adm (pdats (Rs R0 R1) (Vs R0 m)) () defs₀ 𝒱₀ L lv) :=
  Gen.segs m (outs R0 R1 m) 𝒱₀ L lv (E (F := F)) () (pdats (Rs R0 R1) (Vs R0 m))
    (reg (Rs R0 R1) (Vs R0 m) 0 launch0 (Gen.V2 m (outs R0 R1 m)) (hF0 R0 R1 m) fun c b hb =>
      Gen.V2_of m _ c b fun h => hb (List.mem_singleton.mp h ▸ Finset.mem_image.mpr ⟨5, Finset.mem_univ _, rfl⟩))
    (reg (Rs R0 R1) (Vs R0 m) 1 launch1 (Gen.V4 m (outs R0 R1 m)) (hF1 R0 R1 m) fun c b hb =>
      Gen.V4_of m _ c b fun h => hb (List.mem_singleton.mp h ▸ Finset.mem_image.mpr ⟨7, Finset.mem_univ _, rfl⟩)) c

/-- The last valuation: what every unscoped buffer holds when @main returns. -/
abbrev Vend (c : Dev nD) : Valuation τ sig (Elt F) := Gen.V5 m (outs R0 R1 m) c

set_option backward.isDefEq.respectTransparency.types false in
/-- Every weakly fair execution of @main ends, and the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Vend R0 R1 m c b) := by
  refine Pipeline.θ_run_regions_kit_dev (pcfgs (F := F)) Gen.adm (pdats (Rs R0 R1) (Vs R0 m)) () cellOf_inj embL defs₀ 𝒱₀ L lv m ρ main
    (segs R0 R1 m)
    (fun c Q => by
      rewrite [main_chain c, Seg.run_eq_chain,
        show (segs R0 R1 m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => StableHlo.held (c : Thread nD τ) (Pipeline.ucRefs τ sig) (Vend R0 R1 m c))
    (hch := fun c => ⟨.rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Vend R0 R1 m c b)
    (hfin := fun c s' => by
      iintro ⟨Hh, HSI⟩
      unfold StableHlo.held
      imodintro
      iapply (pointsTo_read_all (Pipeline.ucRefs τ sig) (fun b => (((c : Thread nD τ)).1, b)) (Vend R0 R1 m c) s')
      isplitl [Hh] <;> iassumption)
    (hQ := fun s h c => h c)

/-- The nine argument arrays hold in `s` what they held at launch. -/
abbrev Kept (s : MemSt nD τ sig (Elt F)) (c : Dev nD) : Prop :=
  ([main_arg0, main_arg1, main_arg2, main_arg3, main_arg4, main_arg5, main_arg6, main_arg7, main_arg8] : List (Ref sig .tc)).Forall
    fun b => s.mem ((c.tc : Thread nD τ).loc b) = m ((c.tc : Thread nD τ).loc b)

/-- The result array's final contents, beside the frame: no item writes an argument array. -/
theorem run_result : θ_run defs (onTc (τ := τ) (main (F := F))) ⟨m, fun _ => 0, ρ⟩ (fun r => ∀ c : Dev nD,
      r.2.mem ((c.tc : Thread nD τ).loc main_v32) = Vend R0 R1 m c main_v32 ∧ Kept m r.2 c) :=
  (θ_run defs _ _).mono (fun r h c =>
    ⟨h c _ (mem_uc main_v32 (by decide)),
     (h c _ (mem_uc main_arg0 (by decide))).trans (Gen.V5_main_arg0 m _ c),
     (h c _ (mem_uc main_arg1 (by decide))).trans (Gen.V5_main_arg1 m _ c),
     (h c _ (mem_uc main_arg2 (by decide))).trans (Gen.V5_main_arg2 m _ c),
     (h c _ (mem_uc main_arg3 (by decide))).trans (Gen.V5_main_arg3 m _ c),
     (h c _ (mem_uc main_arg4 (by decide))).trans (Gen.V5_main_arg4 m _ c),
     (h c _ (mem_uc main_arg5 (by decide))).trans (Gen.V5_main_arg5 m _ c),
     (h c _ (mem_uc main_arg6 (by decide))).trans (Gen.V5_main_arg6 m _ c),
     (h c _ (mem_uc main_arg7 (by decide))).trans (Gen.V5_main_arg7 m _ c),
     (h c _ (mem_uc main_arg8 (by decide))).trans (Gen.V5_main_arg8 m _ c)⟩) (run_all R0 R1 m ρ)

include R0 R1 in
theorem frame : θ_run defs (onTc (τ := τ) (main (F := F))) ⟨m, fun _ => 0, ρ⟩ (fun r => ∀ c : Dev nD, Kept m r.2 c) :=
  (θ_run defs _ _).mono (fun r h c => (h c).2) (run_result R0 R1 m ρ)

end Cert.KernelIdeal.Run

end
-- ==== Proof.KIFrame.lean ====
import proofs.«418009_j9234179686415_3_alg».proof.Proof.KIRegion0
import proofs.«418009_j9234179686415_3_alg».proof.Proof.KIRegion1
import proofs.«418009_j9234179686415_3_alg».proof.Proof.KIRun

noncomputable section

namespace Cert.KernelIdeal.Frame

open Idealize.ShloMosaic Idealize.ShloMosaic.TcCoe Idealize.SL.Sem

variable {F : FTy → Type} [FloatOps F]

/-- The first call's invariant is the same at every point. -/
def R0 : Run.Region F 0 where
  dat V c := Region0.dat0 V c
  hA V c w := Region0.A_eq0 V c w
  hq _ _ _ := rfl
  howed _ _ _ := rfl
  hrec _ _ _ := rfl
  hbody V c := Region0.body_obligation0 V c
  hin _ _ := .rfl
  hout _ _ := .rfl

/-- The second's starts there, carries the two accumulators from point to point, and gives them back unnamed after the last. -/
def R1 : Run.Region F 1 where
  dat V c := Region1.dat1 V c
  hA V c w := Region1.A_eq1 V c w
  hq _ _ _ := rfl
  howed _ _ _ := rfl
  hrec _ _ _ := rfl
  hbody V c := Region1.body_obligation1 V c
  hin V c := Region1.hin1 V c
  hout V c := Region1.hout1 V c

variable (m : (ℓ : Loc nD τ sig) → Buf (Elt F) ℓ) (ρ : Dev nD → PrngReg)

abbrev Vend (c : Dev nD) : Valuation τ sig (Elt F) := Run.Vend (R0 (F := F)) R1 m c

theorem frame : θ_run defs (onTc (τ := τ) (main (F := F))) ⟨m, fun _ => 0, ρ⟩ (fun r => ∀ c : Dev nD, Run.Kept m r.2 c) :=
  Run.frame R0 R1 m ρ

theorem run_result : θ_run defs (onTc (τ := τ) (main (F := F))) ⟨m, fun _ => 0, ρ⟩ (fun r => ∀ c : Dev nD,
      r.2.mem ((c.tc : Thread nD τ).loc main_v32) = Vend m c main_v32 ∧ Run.Kept m r.2 c) :=
  Run.run_result R0 R1 m ρ

end Cert.KernelIdeal.Frame

end
-- ==== Proof.KISpec.lean ====
import Mathlib.Algebra.BigOperators.Group.Finset.Basic
import Idealize.ShloMosaic.PureOps.Ideal
import Idealize.ShloMosaic.Lib.ValueIdx

noncomputable section

namespace Cert.Spec

open Idealize.ShloMosaic Idealize.ShloMosaic.ValueIdx

abbrev Arr (a b : ℕ) : Type := (⟨2, ![a, b]⟩ : Shape).Idx → EReal

abbrev IArr (a b : ℕ) : Type := (⟨2, ![a, b]⟩ : Shape).Idx → BitVec 32

abbrev one : EReal := Ideal.ofBits .f32 0x3F800000#32
abbrev zero : EReal := Ideal.ofBits .f32 0x00000000#32
abbrev oneB : EReal := Ideal.ofBits .bf16 0x3F80#16

/-- The reciprocal of a degree clipped below at one. -/
def invClip (d : EReal) : EReal := Ideal.div one (max d one)

/-- One entry of a mean-aggregating layer before its activation: the self path plus the neighbour path. -/
def sagePre {K : ℕ} (x s : Fin K → EReal) (dinv : EReal) (ws wn : Fin K → EReal) : EReal :=
  (∑ k, x k * ws k) + ∑ k, (s k * dinv) * wn k

def layer1 (x s : Arr 100000 128) (d : Arr 100000 1) (ws wn : Arr 128 64) : Arr 100000 64 := fun i =>
  max (sagePre (fun k => x (ix2 (i 0) k)) (fun k => s (ix2 (i 0) k)) (invClip (d (ix2 (i 0) 0)))
    (fun k => ws (ix2 k (i 1))) (fun k => wn (ix2 k (i 1)))) zero

theorem layer1_apply (x s : Arr 100000 128) (d : Arr 100000 1) (ws wn : Arr 128 64) (n : Fin 100000) (j : Fin 64) :
    layer1 x s d ws wn (ix2 n j)
      = max (sagePre (fun k => x (ix2 n k)) (fun k => s (ix2 n k)) (invClip (d (ix2 n 0)))
          (fun k => ws (ix2 k j)) (fun k => wn (ix2 k j))) zero := rfl

def layer2 (x1 s2 : Arr 100000 64) (d : Arr 100000 1) (w2s w2n : Arr 64 64) (t : Fin 100000) (e : Fin 64) : EReal :=
  sagePre (fun k => x1 (ix2 t k)) (fun k => s2 (ix2 t k)) (invClip (d (ix2 t 0)))
    (fun k => w2s (ix2 k e)) (fun k => w2n (ix2 k e))

/-- One if the node's graph word is the graph `g`, else zero. -/
def hit (w : BitVec 32) (g : ℕ) : EReal := if w = BitVec.ofNat 32 g then 1 else 0

/-- The sum, over all nodes of graph `g`, of the second layer's entry at feature `e`. -/
def pooled (x1 s2 : Arr 100000 64) (d : Arr 100000 1) (n2g : IArr 100000 1) (w2s w2n : Arr 64 64) (g : ℕ) (e : Fin 64) : EReal :=
  ∑ t : Fin 100000, hit (n2g (ix2 t 0)) g * layer2 x1 s2 d w2s w2n t e
def count (n2g : IArr 100000 1) (g : ℕ) : EReal :=
  ∑ t : Fin 100000, hit (n2g (ix2 t 0)) g * oneB

/-- The logistic of the last linear map of the pooled means, over the 1024 padded graph slots. -/
def readout (x1 s2 : Arr 100000 64) (d : Arr 100000 1) (n2g : IArr 100000 1) (w2s w2n : Arr 64 64) (wfc : Arr 64 1) : Arr 1024 1 := fun i =>
  Ideal.logistic (∑ e : Fin 64, Ideal.div (pooled x1 s2 d n2g w2s w2n (i 0).val e) (max (count n2g (i 0).val) one) * wfc (ix2 e 0))

theorem readout_apply (x1 s2 : Arr 100000 64) (d : Arr 100000 1) (n2g : IArr 100000 1) (w2s w2n : Arr 64 64) (wfc : Arr 64 1) (g : Fin 1024) :
    readout x1 s2 d n2g w2s w2n wfc (ix2 g 0)
      = Ideal.logistic (∑ e : Fin 64, Ideal.div (pooled x1 s2 d n2g w2s w2n g.val e) (max (count n2g g.val) one) * wfc (ix2 e 0)) := rfl

end Cert.Spec

end
-- ==== Proof.LibColumn.lean ====
import Idealize.ShloMosaic.Lib.ValueLayout

namespace Cert.LibColumn

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along rows reads, at (p, c), its entry at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KIHost.lean ====
import proofs.«418009_j9234179686415_3_alg».proof.Proof.Gen.KernelIdeal.Regions
import proofs.«418009_j9234179686415_3_alg».proof.Proof.Gen.ReferenceIdeal.Read
import proofs.«418009_j9234179686415_3_alg».proof.Proof.KISpec
import proofs.«418009_j9234179686415_3_alg».proof.Proof.LibColumn
import Idealize.ShloMosaic.Lib.StableHlo.Run
import Idealize.ShloMosaic.Lib.Pipeline.Value

noncomputable section

namespace Cert.KernelIdeal.Host

open Cert.KernelIdeal Cert.KernelIdeal.Gen
open Idealize.ShloMosaic Idealize.ShloMosaic.TcCoe Idealize.ShloMosaic.ValueIdx Idealize.SL.Sem
open Idealize.ShloMosaic.StableHlo

/-- The in-degrees: a one added at every edge's destination, into zeros. -/
def kDeg (dst : S1600000.Idx → BitVec 32) : S100000.Idx → EReal :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

def kDegCol (dst : S1600000.Idx → BitVec 32) : Spec.Arr 100000 1 :=
  shapeCast S100000x1 (kDeg dst) shapeCasts_S100000_S100000x1

theorem kDegCol_apply (dst : S1600000.Idx → BitVec 32) (n : Fin 100000) :
    kDegCol dst (ix2 n 0) = kDeg dst (ix1 n) :=
  Cert.LibColumn.shapeCast_a_a1_apply (kDeg dst) shapeCasts_S100000_S100000x1 n 0

def kSrc (src : S1600000.Idx → BitVec 32) : S1600000x1.Idx → BitVec 32 :=
  broadcastInDim S1600000x1 ![0] bcast_S1600000_S1600000x1_0
    (select
      (cmpi CmpIPredicate.slt src (broadcastInDim S1600000 ![] bcast_S_S1600000 (constantI S_ 32 0#32)))
      (addi src (broadcastInDim S1600000 ![] bcast_S_S1600000 (constantI S_ 32 100000#32)))
      src)

/-- The first neighbour sums: each edge's source row added at the edge's destination, into zeros. -/
def kS1 (feat : Spec.Arr 100000 128) (src dst : S1600000.Idx → BitVec 32) : Spec.Arr 100000 128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf .f32
      (Host.gather gather_S100000x128_S1600000x1_S1600000x128_1_0_n_n_0_1_1128
        (truncf .bf16 (feat : FVec Ideal S100000x128 .f32) bitsLt_bf16_f32) (kSrc src))
      bitsLt_bf16_f32)

def kS2 (x1 : Spec.Arr 100000 64) (src dst : S1600000.Idx → BitVec 32) : Spec.Arr 100000 64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (extf .f32
      (Host.gather gather_S100000x64_S1600000x1_S1600000x64_1_0_n_n_0_1_164
        (truncf .bf16 (x1 : FVec Ideal S100000x64 .f32) bitsLt_bf16_f32) (kSrc src))
      bitsLt_bf16_f32)

def kCol (n2g : S100000.Idx → BitVec 32) : Spec.IArr 100000 1 :=
  shapeCast S100000x1 n2g shapeCasts_S100000_S100000x1

theorem kCol_apply (n2g : S100000.Idx → BitVec 32) (t : Fin 100000) : kCol n2g (ix2 t 0) = n2g (ix1 t) :=
  Cert.LibColumn.shapeCast_a_a1_apply n2g shapeCasts_S100000_S100000x1 t 0

variable (m : (ℓ : Loc nD τ sig) → Buf (Elt Ideal) ℓ) (outs : Gen.Outs (F := Ideal)) (c : Dev nD)

theorem V1_arg0 : Gen.V1 m c main_arg0 = m ((c.tc : Thread nD τ).loc main_arg0) := (Gen.V1_of m c main_arg0 (by decide)).trans rfl
theorem V1_arg1 : Gen.V1 m c main_arg1 = m ((c.tc : Thread nD τ).loc main_arg1) := (Gen.V1_of m c main_arg1 (by decide)).trans rfl
theorem V1_arg2 : Gen.V1 m c main_arg2 = m ((c.tc : Thread nD τ).loc main_arg2) := (Gen.V1_of m c main_arg2 (by decide)).trans rfl

theorem V1_v4 : Gen.V1 m c main_v4 = kDegCol (m ((c.tc : Thread nD τ).loc main_arg7)) := by
  have e : (Gen.V1 m c main_v4 : S100000x1.Idx → EReal) = kDegCol (m ((c.tc : Thread nD τ).loc main_arg7)) := by
    dsimp only [Gen.V1, Gen.hostOps0]
    after_results
    rfl
  exact e

set_option maxHeartbeats 2000000 in

theorem V1_v16 : Gen.V1 m c main_v16
    = kS1 (m ((c.tc : Thread nD τ).loc main_arg0)) (m ((c.tc : Thread nD τ).loc main_arg6)) (m ((c.tc : Thread nD τ).loc main_arg7)) := by
  have e : (Gen.V1 m c main_v16 : S100000x128.Idx → EReal)
      = kS1 (m ((c.tc : Thread nD τ).loc main_arg0)) (m ((c.tc : Thread nD τ).loc main_arg6)) (m ((c.tc : Thread nD τ).loc main_arg7)) := by
    dsimp only [Gen.V1, Gen.hostOps0]
    after_results
    rfl
  exact e

theorem V2_v17 : Gen.V2 m outs c main_v17 = outs 2 main_v17 c := Function.update_self _ _ _
theorem V2_arg6 : Gen.V2 m outs c main_arg6 = m ((c.tc : Thread nD τ).loc main_arg6) :=
  (Gen.V2_of m outs c main_arg6 (by decide)).trans ((Gen.V1_of m c main_arg6 (by decide)).trans rfl)
theorem V2_arg7 : Gen.V2 m outs c main_arg7 = m ((c.tc : Thread nD τ).loc main_arg7) :=
  (Gen.V2_of m outs c main_arg7 (by decide)).trans ((Gen.V1_of m c main_arg7 (by decide)).trans rfl)
theorem V2_arg8 : Gen.V2 m outs c main_arg8 = m ((c.tc : Thread nD τ).loc main_arg8) :=
  (Gen.V2_of m outs c main_arg8 (by decide)).trans ((Gen.V1_of m c main_arg8 (by decide)).trans rfl)

theorem V3_v17 : Gen.V3 m outs c main_v17 = outs 2 main_v17 c :=
  (Gen.V3_of m outs c main_v17 (by decide)).trans (V2_v17 m outs c)

theorem V3_v4 : Gen.V3 m outs c main_v4 = kDegCol (m ((c.tc : Thread nD τ).loc main_arg7)) :=
  (Gen.V3_of m outs c main_v4 (by decide)).trans ((Gen.V2_of m outs c main_v4 (by decide)).trans (V1_v4 m c))

theorem V3_arg3 : Gen.V3 m outs c main_arg3 = m ((c.tc : Thread nD τ).loc main_arg3) :=
  (Gen.V3_of m outs c main_arg3 (by decide)).trans ((Gen.V2_of m outs c main_arg3 (by decide)).trans ((Gen.V1_of m c main_arg3 (by decide)).trans rfl))
theorem V3_arg4 : Gen.V3 m outs c main_arg4 = m ((c.tc : Thread nD τ).loc main_arg4) :=
  (Gen.V3_of m outs c main_arg4 (by decide)).trans ((Gen.V2_of m outs c main_arg4 (by decide)).trans ((Gen.V1_of m c main_arg4 (by decide)).trans rfl))
theorem V3_arg5 : Gen.V3 m outs c main_arg5 = m ((c.tc : Thread nD τ).loc main_arg5) :=
  (Gen.V3_of m outs c main_arg5 (by decide)).trans ((Gen.V2_of m outs c main_arg5 (by decide)).trans ((Gen.V1_of m c main_arg5 (by decide)).trans rfl))

set_option maxHeartbeats 2000000 in

theorem V3_v29 : Gen.V3 m outs c main_v29
    = kS2 (outs 2 main_v17 c) (m ((c.tc : Thread nD τ).loc main_arg6)) (m ((c.tc : Thread nD τ).loc main_arg7)) := by
  have e : (Gen.V3 m outs c main_v29 : S100000x64.Idx → EReal)
      = kS2 (outs 2 main_v17 c) (m ((c.tc : Thread nD τ).loc main_arg6)) (m ((c.tc : Thread nD τ).loc main_arg7)) := by
    dsimp only [Gen.V3, Gen.hostOps1]
    after_results
    rw [V2_v17, V2_arg6, V2_arg7]
    rfl
  exact e

theorem V3_v30 : Gen.V3 m outs c main_v30 = kCol (m ((c.tc : Thread nD τ).loc main_arg8)) := by
  have e : (Gen.V3 m outs c main_v30 : S100000x1.Idx → BitVec 32) = kCol (m ((c.tc : Thread nD τ).loc main_arg8)) := by
    dsimp only [Gen.V3, Gen.hostOps1]
    after_results
    rw [V2_arg8]
    rfl
  exact e

theorem V4_v31 : Gen.V4 m outs c main_v31 = outs 4 main_v31 c := Function.update_self _ _ _

/-- The result keeps the first 1000 of the 1024 graph slots. -/
theorem V5_v32 (g : Fin 1000) :
    Gen.V5 m outs c main_v32 (ix2 g 0) = outs 4 main_v31 c (ix2 ⟨g.val, by omega⟩ 0) := by
  have e : (Gen.V5 m outs c main_v32 : S1000x1.Idx → EReal)
      = extractStridedSlice S1000x1 ![0, 0] (outs 4 main_v31 c : S1024x1.Idx → EReal) slices_S1024x1_S1000x1_0_0 := by
    dsimp only [Gen.V5, Gen.hostOps2]
    after_results
    rw [V4_v31]
  rw [e]
  exact extractStridedSlice_apply _ _ _ (ix2 g 0) (ix2 ⟨g.val, by omega⟩ 0) (fun a => match a with
    | ⟨0, _⟩ => by show g.val = 0 + g.val; omega
    | ⟨1, _⟩ => rfl)

/-- On extended reals a change of float format is the identity. -/
theorem extf_gather_truncf {s si t : Shape} {w : ℕ} (d : GatherDims s si t) (x : FVec Ideal s .f32) (idx : IVec si w)
    (h1 : FTy.bits .bf16 < FTy.bits .f32) (h2 : FTy.bits .bf16 < FTy.bits .f32) :
    extf .f32 (Host.gather d (truncf .bf16 x h1) idx) h2 = Host.gather d x idx := rfl

theorem kDeg_eq (dst : S1600000.Idx → BitVec 32) : kDeg dst = Cert.ReferenceIdeal.Read.val_main_v13 (F := Ideal) dst := by
  unfold kDeg Cert.ReferenceIdeal.Read.val_main_v13
  rfl

theorem v36_eq (dst : S1600000.Idx → BitVec 32) :
    Cert.ReferenceIdeal.Read.val_main_v36 (F := Ideal) dst = Cert.ReferenceIdeal.Read.val_main_v13 (F := Ideal) dst := by
  unfold Cert.ReferenceIdeal.Read.val_main_v36 Cert.ReferenceIdeal.Read.val_main_v13
  rfl

theorem kS1_eq (feat : Spec.Arr 100000 128) (src dst : S1600000.Idx → BitVec 32) :
    kS1 feat src dst = Cert.ReferenceIdeal.Read.val_main_v9 (F := Ideal) feat src dst := by
  unfold kS1 Cert.ReferenceIdeal.Read.val_main_v9 Cert.ReferenceIdeal.Read.val_main_v6
  rw [extf_gather_truncf]
  rfl

theorem kS2_eq (x0 : Spec.Arr 100000 128) (x1 x2 : Spec.Arr 128 64) (x6 x7 : S1600000.Idx → BitVec 32) :
    kS2 (Cert.ReferenceIdeal.Read.val_main_v22 (F := Ideal) x0 x1 x2 x6 x7) x6 x7
      = Cert.ReferenceIdeal.Read.val_main_v32 (F := Ideal) x0 x1 x2 x6 x7 := by
  unfold kS2 Cert.ReferenceIdeal.Read.val_main_v32 Cert.ReferenceIdeal.Read.val_main_v29
  rw [extf_gather_truncf]
  rfl

end Cert.KernelIdeal.Host

end
-- ==== Proof.LibDotPlain.lean ====
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- A product of an [m, k] block with a [k, n] block from zero: entry (a, b) is the sum over c of A (a, c) · B (c, b). -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same with the ROWS of both operands contracted: entry (a, b) is the sum over c of A (c, a) · B (c, b). -/
theorem matmul_tn_zero_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    FloatOps.matmul (⟨[0], [0], [1], [1], [], [], w⟩ : DotDims ⟨2, ![k, m]⟩ ⟨2, ![k, n]⟩ ⟨2, ![m, n]⟩) prec A B
        (constant ⟨2, ![m, n]⟩ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.KILayer1Arr.lean ====
import proofs.«418009_j9234179686415_3_alg».proof.Proof.KIRegion0
import proofs.«418009_j9234179686415_3_alg».proof.Proof.KISpec
import proofs.«418009_j9234179686415_3_alg».proof.Proof.LibDotPlain
import proofs.«418009_j9234179686415_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer1Arr

open Cert.KernelIdeal Cert.KernelIdeal.Gen
open Idealize.ShloMosaic Idealize.ShloMosaic.TcCoe Idealize.ShloMosaic.ValueIdx
open Idealize.ShloMosaic.Pipeline (Dat Cfg Window)

theorem mm_apply {φ₁ φ₂ : FTy} (A : FVec Ideal S4000x128 φ₁) (B : FVec Ideal S128x64 φ₂) (p : Fin 4000) (j : Fin 64) :
    matmul dot_S4000x128_S128x64_S4000x64_1_0_0_1_n_n none A B (constant (F := Ideal) S4000x64 .f32 0x00000000#32) (ix2 p j)
      = ∑ k : Fin 128, A (ix2 p k) * B (ix2 k j) :=
  LibDotPlain.matmul_zero_apply (m := 4000) (n := 64) (k := 128) dot_S4000x128_S128x64_S4000x64_1_0_0_1_n_n_wf none A B p j

/-- The stored value at (p, j): each matrix product is one finite sum, every other operation acts entry by entry. -/
theorem k0_pay1_apply (x0 x1 : Vec Ideal S4000x128 .f32) (x2 : Vec Ideal S4000x1 .f32) (x3 x4 : Vec Ideal S128x64 .f32) (p : Fin 4000) (j : Fin 64) :
    Gen.k0_pay1 (F := Ideal) x0 x1 x2 x3 x4 (ix2 p j)
      = max (Spec.sagePre (fun k => x0 (ix2 p k)) (fun k => x1 (ix2 p k)) (Spec.invClip (x2 (ix2 p 0))) (fun k => x3 (ix2 k j)) (fun k => x4 (ix2 k j))) Spec.zero := by
  unfold Gen.k0_pay1
  simp only [maximumf_apply, addf_apply, broadcast_apply, mm_apply, truncf_apply, mulf_apply, divf_apply,
    shapeCast_self, LibColumn.broadcastTo_a1_ab_apply]
  rfl

variable (V : (c : Dev nD) → (b : Ref sig .tc) → Buf (Elt Ideal) ((c : Thread nD τ).loc b))

theorem lt_25 (t : Fin cfg0.N) : t.val < 25 := Nat.lt_of_lt_of_eq t.isLt N_0

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem blk0_apply (c : Dev nD) (t : Fin cfg0.N) (p : Fin 4000) (k : Fin 128) (n : Fin 100000) (hn : n.val = 4000 * t.val + p.val) :
    (Region0.iblk0 V c 0 t : Vec Ideal S4000x128 .f32) (ix2 p k) = (V c main_arg0 : Spec.Arr 100000 128) (ix2 n k) := by
  obtain ⟨e0, e1, -⟩ := idx_facts t
  exact congrArg (V c main_arg0 : Spec.Arr 100000 128) (Shape.idx_ext₂ (by show win0_0.index t (0 : Fin 2) * 4000 + 1 * p.val = n.val; omega) (by show win0_0.index t (1 : Fin 2) * 128 + 1 * k.val = k.val; omega))

theorem blk1_apply (c : Dev nD) (t : Fin cfg0.N) (p : Fin 4000) (k : Fin 128) (n : Fin 100000) (hn : n.val = 4000 * t.val + p.val) :
    (Region0.iblk0 V c 1 t : Vec Ideal S4000x128 .f32) (ix2 p k) = (V c main_v16 : Spec.Arr 100000 128) (ix2 n k) := by
  obtain ⟨-, -, e0, e1, -⟩ := idx_facts t
  exact congrArg (V c main_v16 : Spec.Arr 100000 128) (Shape.idx_ext₂ (by show win0_1.index t (0 : Fin 2) * 4000 + 1 * p.val = n.val; omega) (by show win0_1.index t (1 : Fin 2) * 128 + 1 * k.val = k.val; omega))

theorem blk2_apply (c : Dev nD) (t : Fin cfg0.N) (p : Fin 4000) (n : Fin 100000) (hn : n.val = 4000 * t.val + p.val) :
    (Region0.iblk0 V c 2 t : Vec Ideal S4000x1 .f32) (ix2 p 0) = (V c main_v4 : Spec.Arr 100000 1) (ix2 n 0) := by
  obtain ⟨-, -, -, -, e0, e1, -⟩ := idx_facts t
  exact congrArg (V c main_v4 : Spec.Arr 100000 1) (Shape.idx_ext₂ (by show win0_2.index t (0 : Fin 2) * 4000 + 1 * p.val = n.val; omega) (by show win0_2.index t (1 : Fin 2) * 1 + 1 * 0 = 0; omega))

theorem blk3_apply (c : Dev nD) (t : Fin cfg0.N) (k : Fin 128) (j : Fin 64) :
    (Region0.iblk0 V c 3 t : Vec Ideal S128x64 .f32) (ix2 k j) = (V c main_arg1 : Spec.Arr 128 64) (ix2 k j) := by
  obtain ⟨-, -, -, -, -, -, e0, e1, -⟩ := idx_facts t
  exact congrArg (V c main_arg1 : Spec.Arr 128 64) (Shape.idx_ext₂ (by show win0_3.index t (0 : Fin 2) * 128 + 1 * k.val = k.val; omega) (by show win0_3.index t (1 : Fin 2) * 64 + 1 * j.val = j.val; omega))

theorem blk4_apply (c : Dev nD) (t : Fin cfg0.N) (k : Fin 128) (j : Fin 64) :
    (Region0.iblk0 V c 4 t : Vec Ideal S128x64 .f32) (ix2 k j) = (V c main_arg2 : Spec.Arr 128 64) (ix2 k j) := by
  obtain ⟨-, -, -, -, -, -, -, -, e0, e1, -⟩ := idx_facts t
  exact congrArg (V c main_arg2 : Spec.Arr 128 64) (Shape.idx_ext₂ (by show win0_4.index t (0 : Fin 2) * 128 + 1 * k.val = k.val; omega) (by show win0_4.index t (1 : Fin 2) * 64 + 1 * j.val = j.val; omega))

theorem entry_congr {K : ℕ} {x x' s s' ws ws' wn wn' : Fin K → EReal} {d d' : EReal}
    (hx : x = x') (hs : s = s') (hd : d = d') (hws : ws = ws') (hwn : wn = wn') :
    max (Spec.sagePre x s (Spec.invClip d) ws wn) Spec.zero = max (Spec.sagePre x' s' (Spec.invClip d') ws' wn') Spec.zero := by
  subst hx; subst hs; subst hd; subst hws; subst hwn; rfl

/-- Block t of the result is the layer's rows 4000 t … 4000 t + 3999: every read lands on that row, or on a whole weight matrix. -/
theorem flushed_eq (c : Dev nD) (t : Fin cfg0.N) :
    (Region0.dat0 (F := Ideal) V c).flushed 5 t
      = ((cfg0.win 5).blk t).view.read (Elt Ideal)
          (Spec.layer1 (V c main_arg0) (V c main_v16) (V c main_v4) (V c main_arg1) (V c main_arg2)) := by
  show (cfg0.win 5).cut (grid0.coords t) ((Region0.dat0 (F := Ideal) V c).after 5 t) = _
  rw [Region0.after0_5, Region0.out0_5_eq]
  refine funext fun (y : S4000x64.Idx) => ?_
  obtain ⟨p, j, rfl⟩ : ∃ (p : Fin 4000) (j : Fin 64), y = ix2 p j := ⟨y 0, y 1, eq_ix2 y⟩
  have ht := lt_25 t
  have hn : 4000 * t.val + p.val < 100000 := by have := p.isLt; omega
  obtain ⟨-, -, -, -, -, -, -, -, -, -, e0, e1⟩ := idx_facts t
  have hemb : ((cfg0.win 5).blk t).view.emb (ix2 p j) = (ix2 (⟨4000 * t.val + p.val, hn⟩ : Fin 100000) j : S100000x64.Idx) := by
    exact Shape.idx_ext₂ (by show win0_5.index t (0 : Fin 2) * 4000 + 1 * p.val = 4000 * t.val + p.val; omega) (by show win0_5.index t (1 : Fin 2) * 64 + 1 * j.val = j.val; omega)
  refine (k0_pay1_apply (Region0.iblk0 V c 0 t) (Region0.iblk0 V c 1 t) (Region0.iblk0 V c 2 t) (Region0.iblk0 V c 3 t) (Region0.iblk0 V c 4 t) p j).trans ?_
  rw [View.read_apply, hemb, Spec.layer1_apply]
  exact entry_congr (funext fun k => blk0_apply V c t p k _ rfl) (funext fun k => blk1_apply V c t p k _ rfl)
    (blk2_apply V c t p _ rfl) (funext fun k => blk3_apply V c t k j) (funext fun k => blk4_apply V c t k j)

/-- Row r lies in the block of point r / 4000. -/
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  have htv : t.val = (i 0).val / 4000 := rfl
  obtain ⟨-, -, -, -, -, -, -, -, -, -, e0, e1⟩ := idx_facts t
  refine ⟨t, flush0_5 t, ?_⟩
  show i ∈ ((View.whole main_v17).slice (win0_5.rect t)).set
  rw [View.set_slice_whole, Rect.mem_set_unit]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

/-- The blocks are restrictions of one function and cover the array. -/
theorem layer1_arr (c : Dev nD) :
    ((Region0.dat0 (F := Ideal) V c).arrAt 5 cfg0.N : Spec.Arr 100000 64)
      = Spec.layer1 (V c main_arg0) (V c main_v16) (V c main_v4) (V c main_arg1) (V c main_arg2) :=
  (Region0.dat0 (F := Ideal) V c).arrAt_eq_of_cover 5
    (Spec.layer1 (V c main_arg0) (V c main_v16) (V c main_v4) (V c main_arg1) (V c main_arg2))
    (fun t _ => flushed_eq V c t) cover5

end Cert.KernelIdeal.Layer1Arr

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

namespace Cert.LibERealSage

open Idealize.ShloMosaic

/-- An extended real that is the image of a real number. -/
def IsReal (x : EReal) : Prop := ∃ r : ℝ, x = (r : EReal)

theorem isReal_zero : IsReal (0 : EReal) := ⟨0, rfl⟩

theorem isReal_one : IsReal (1 : EReal) := ⟨1, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- Dividing by a nonzero real is multiplying by its reciprocal, also at the infinities. -/
theorem div_eq_mul_one_div (s : EReal) {r : ℝ} (hr : r ≠ 0) :
    Ideal.div s (r : EReal) = s * Ideal.div 1 (r : EReal) := by
  rw [Ideal.div_coe hr, Ideal.div_coe hr, one_mul]

/-- The maximum of a real with one is a real that is at least one, so not zero. -/
theorem isReal_max_one (c : EReal) (hc : IsReal c) : ∃ r : ℝ, r ≠ 0 ∧ max c 1 = (r : EReal) := by
  obtain ⟨a, rfl⟩ := hc
  refine ⟨max a 1, by have := le_max_right a 1; linarith, ?_⟩
  rw [← EReal.coe_one]
  exact (EReal.coe_strictMono.monotone.map_max).symm

/-- A scatter-add entry is the operand's entry plus a finite sum of updates. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := fun i =>
  isReal_add (hx i) (isReal_sum _ _ (fun j _ => hu j))

end Cert.LibERealSage
-- ==== Proof.KILayer1Bridge.lean ====
import proofs.«418009_j9234179686415_3_alg».proof.Proof.Gen.ReferenceIdeal.Read
import proofs.«418009_j9234179686415_3_alg».proof.Proof.KISpec
import proofs.«418009_j9234179686415_3_alg».proof.Proof.LibERealSage
import Idealize.ShloMosaic.Lib.IdealHost

noncomputable section

namespace Cert.KernelIdeal.Layer1Bridge

open Idealize.ShloMosaic Idealize.ShloMosaic.ValueIdx Cert.ReferenceIdeal Cert.ReferenceIdeal.Read Cert.LibERealSage

theorem lidx19_eq (n : Fin 100000) (j : Fin 64) (k : Fin 128) : lidx_main_v19 (ix2 n j) k = ix2 n k :=
  funext fun a => Fin.ext (by match a with | ⟨0, _⟩ => rfl | ⟨1, _⟩ => rfl)

theorem ridx19_eq (n : Fin 100000) (j : Fin 64) (k : Fin 128) : ridx_main_v19 (ix2 n j) k = ix2 k j :=
  funext fun a => Fin.ext (by match a with | ⟨0, _⟩ => rfl | ⟨1, _⟩ => rfl)

theorem lidx20_eq (n : Fin 100000) (j : Fin 64) (k : Fin 128) : lidx_main_v20 (ix2 n j) k = ix2 n k :=
  funext fun a => Fin.ext (by match a with | ⟨0, _⟩ => rfl | ⟨1, _⟩ => rfl)

theorem ridx20_eq (n : Fin 100000) (j : Fin 64) (k : Fin 128) : ridx_main_v20 (ix2 n j) k = ix2 k j :=
  funext fun a => Fin.ext (by match a with | ⟨0, _⟩ => rfl | ⟨1, _⟩ => rfl)

theorem idx16_17_eq (n : Fin 100000) (k : Fin 128) : idx_main_v16 (idx_main_v17 (ix2 n k)) = ix1 n :=
  funext fun a => Fin.ext (by match a with | ⟨0, _⟩ => rfl)

/-- A degree is zero plus a finite sum of ones. -/
theorem deg_isReal (x7 : (⟨1, ![1600000]⟩ : Shape).Idx → BitVec 32) (i : (⟨1, ![100000]⟩ : Shape).Idx) :
    IsReal (val_main_v13 (F := Ideal) x7 i) := by
  unfold val_main_v13
  refine isReal_scatterAdd (φ := .f32) _ _ _ _ (fun a => ?_) (fun b => ?_) i
  · rw [val_main_v11_apply, val_main_cst_2_apply, Ideal.ofBits_def, Ideal.ofBits_zero_f32]
    exact isReal_zero
  · rw [val_main_v10_apply, val_main_cst_1_apply, Ideal.ofBits_def, Ideal.ofBits_one_f32]
    exact isReal_one

/-- Dividing by the clipped degree, a nonzero real, is multiplying by its reciprocal. -/
theorem mean_entry (x0 : Spec.Arr 100000 128) (x6 x7 : (⟨1, ![1600000]⟩ : Shape).Idx → BitVec 32)
    (n : Fin 100000) (k : Fin 128) :
    val_main_v18 (F := Ideal) x0 x6 x7 (ix2 n k)
      = val_main_v9 (F := Ideal) x0 x6 x7 (ix2 n k) * Spec.invClip (val_main_v13 (F := Ideal) x7 (ix1 n)) := by
  rw [val_main_v18_apply, val_main_v17_apply, val_main_v16_apply, val_main_v15_apply, val_main_v14_apply,
    val_main_cst_3_apply, idx16_17_eq]
  simp only [Ideal.hostDivf_def, Ideal.maximumf_def, Ideal.ofBits_def, Spec.invClip, Spec.one, Ideal.ofBits_one_f32]
  obtain ⟨r, hr, h⟩ := isReal_max_one _ (deg_isReal x7 (ix1 n))
  rw [h]
  exact div_eq_mul_one_div _ hr

theorem layer1_eq (x0 : Spec.Arr 100000 128) (x1 x2 : Spec.Arr 128 64)
    (x6 x7 : (⟨1, ![1600000]⟩ : Shape).Idx → BitVec 32) (dcol : Spec.Arr 100000 1)
    (hd : ∀ n : Fin 100000, dcol (ix2 n 0) = Cert.ReferenceIdeal.Read.val_main_v13 (F := Ideal) x7 (ix1 n)) :
    Spec.layer1 x0 (Cert.ReferenceIdeal.Read.val_main_v9 (F := Ideal) x0 x6 x7) dcol x1 x2
      = Cert.ReferenceIdeal.Read.val_main_v22 (F := Ideal) x0 x1 x2 x6 x7 := by
  funext i
  obtain ⟨n, j, rfl⟩ : ∃ (n : Fin 100000) (j : Fin 64), i = ix2 n j := ⟨i 0, i 1, eq_ix2 i⟩
  rw [Spec.layer1_apply, hd n, val_main_v22_apply, val_main_v21_apply, val_main_v19_apply, val_main_v20_apply,
    val_main_call0_v0_apply, val_main_call0_cst_apply]
  simp only [Ideal.maximumf_def, Ideal.addf_def, Ideal.ofBits_def, lidx19_eq, ridx19_eq, lidx20_eq, ridx20_eq,
    mean_entry]
  rfl

end Cert.KernelIdeal.Layer1Bridge

end
-- ==== Proof.LibTile.lean ====
import Mathlib.Algebra.BigOperators.Fin
import Mathlib.Algebra.BigOperators.Intervals
import Mathlib.Logic.Equiv.Fin.Basic

namespace Cert.Hand.LibTile

variable {M : Type*} [AddCommMonoid M]

theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- A sum over m · n places is the sum over m tiles of the sums over the n places inside each. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- An accumulator that starts at zero plus tile 0 and gains one tile per step ends at the whole sum. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

end Cert.Hand.LibTile
-- ==== Proof.KIReadoutAcc.lean ====
import proofs.«418009_j9234179686415_3_alg».proof.Proof.KISpec
import proofs.«418009_j9234179686415_3_alg».proof.Proof.LibTile
import Idealize.ShloMosaic.PureOps.Ideal.Laws

noncomputable section

namespace Cert.KernelIdeal.ReadoutAcc

open Idealize.ShloMosaic Idealize.ShloMosaic.ValueIdx Cert.Hand

theorem row_lt {t p : ℕ} (ht : t < 50) (hp : p < 2000) : 2000 * t + p < 100000 :=
  LibTile.tile_lt (m := 50) (n := 2000) rfl ht hp

abbrev row (t : ℕ) (ht : t < 50) (p : Fin 2000) : Fin 100000 := ⟨2000 * t + p.val, row_lt ht p.isLt⟩

/-- What one tile of 2000 rows adds to the feature accumulator at (g, e). -/
def gain (x s : Spec.Arr 2000 64) (d : Spec.Arr 2000 1) (w : Spec.IArr 2000 1) (ws wn : Spec.Arr 64 64)
    (g : Fin 1024) (e : Fin 64) : EReal :=
  ∑ p : Fin 2000, Spec.hit (w (ix2 p 0)) g.val *
    Spec.sagePre (fun k => x (ix2 p k)) (fun k => s (ix2 p k)) (Spec.invClip (d (ix2 p 0)))
      (fun k => ws (ix2 k e)) (fun k => wn (ix2 k e))

def gainCount (w : Spec.IArr 2000 1) (g : Fin 1024) : EReal :=
  ∑ p : Fin 2000, Spec.hit (w (ix2 p 0)) g.val * Spec.oneB

section Pooled

variable (x1 s2 : Spec.Arr 100000 64) (d : Spec.Arr 100000 1) (n2g : Spec.IArr 100000 1) (w2s w2n : Spec.Arr 64 64)
variable (acc : (n : ℕ) → n < 50 → Spec.Arr 1024 64)
variable (bx bs : (n : ℕ) → n < 50 → Spec.Arr 2000 64) (bd : (n : ℕ) → n < 50 → Spec.Arr 2000 1)
  (bg : (n : ℕ) → n < 50 → Spec.IArr 2000 1) (bws bwn : (n : ℕ) → n < 50 → Spec.Arr 64 64)

/-- An accumulator reset at the first tile and fed one tile per step ends at the sum over all 100000 rows. -/
theorem pooled_last
    (hx : ∀ (t : ℕ) (ht : t < 50) (p : Fin 2000) (k : Fin 64), bx t ht (ix2 p k) = x1 (ix2 (row t ht p) k))
    (hs2 : ∀ (t : ℕ) (ht : t < 50) (p : Fin 2000) (k : Fin 64), bs t ht (ix2 p k) = s2 (ix2 (row t ht p) k))
    (hd : ∀ (t : ℕ) (ht : t < 50) (p : Fin 2000), bd t ht (ix2 p 0) = d (ix2 (row t ht p) 0))
    (hg : ∀ (t : ℕ) (ht : t < 50) (p : Fin 2000), bg t ht (ix2 p 0) = n2g (ix2 (row t ht p) 0))
    (hws : ∀ (t : ℕ) (ht : t < 50) (k e : Fin 64), bws t ht (ix2 k e) = w2s (ix2 k e))
    (hwn : ∀ (t : ℕ) (ht : t < 50) (k e : Fin 64), bwn t ht (ix2 k e) = w2n (ix2 k e))
    (h0 : ∀ (z : 0 < 50) (g : Fin 1024) (e : Fin 64), acc 0 z (ix2 g e)
      = Spec.zero + gain (bx 0 z) (bs 0 z) (bd 0 z) (bg 0 z) (bws 0 z) (bwn 0 z) g e)
    (hs : ∀ (n : ℕ) (h : n + 1 < 50) (g : Fin 1024) (e : Fin 64), acc (n + 1) h (ix2 g e)
      = acc n (Nat.lt_of_succ_lt h) (ix2 g e) + gain (bx (n + 1) h) (bs (n + 1) h) (bd (n + 1) h) (bg (n + 1) h)
          (bws (n + 1) h) (bwn (n + 1) h) g e)
    (l : 49 < 50) (g : Fin 1024) (e : Fin 64) :
    acc 49 l (ix2 g e) = Spec.pooled x1 s2 d n2g w2s w2n g.val e := by
  refine LibTile.acc_last_eq_sum (m := 50) (n := 2000) (N := 100000) rfl (by decide)
    (fun r => Spec.hit (n2g (ix2 r 0)) g.val * Spec.layer2 x1 s2 d w2s w2n r e)
    (fun n => if h : n < 50 then acc n h (ix2 g e) else 0)
    (fun t p => if h : t < 50 then Spec.hit (bg t h (ix2 p 0)) g.val *
      Spec.sagePre (fun k => bx t h (ix2 p k)) (fun k => bs t h (ix2 p k)) (Spec.invClip (bd t h (ix2 p 0)))
        (fun k => bws t h (ix2 k e)) (fun k => bwn t h (ix2 k e)) else 0) ?_ ?_ ?_
  · intro t ht p
    show (if h : t < 50 then _ else 0) = Spec.hit (n2g (ix2 (row t ht p) 0)) g.val *
      Spec.sagePre (fun k => x1 (ix2 (row t ht p) k)) (fun k => s2 (ix2 (row t ht p) k))
        (Spec.invClip (d (ix2 (row t ht p) 0))) (fun k => w2s (ix2 k e)) (fun k => w2n (ix2 k e))
    rw [dif_pos ht]
    simp only [hx t ht, hs2 t ht, hd t ht, hg t ht, hws t ht, hwn t ht]
  · have h := h0 (by decide) g e
    rw [show Spec.zero = (0 : EReal) from Ideal.ofBits_zero_f32] at h
    unfold gain at h
    simp only [dif_pos (show (0 : ℕ) < 50 by decide)]
    exact h
  · intro k hk
    have h := hs k hk g e
    unfold gain at h
    simp only [dif_pos hk, dif_pos (Nat.lt_of_succ_lt hk)]
    exact h

end Pooled

section Count

variable (n2g : Spec.IArr 100000 1) (cnt : (n : ℕ) → n < 50 → Spec.Arr 1024 1) (bg : (n : ℕ) → n < 50 → Spec.IArr 2000 1)

theorem count_last
    (hg : ∀ (t : ℕ) (ht : t < 50) (p : Fin 2000), bg t ht (ix2 p 0) = n2g (ix2 (row t ht p) 0))
    (h0 : ∀ (z : 0 < 50) (g : Fin 1024), cnt 0 z (ix2 g 0) = Spec.zero + gainCount (bg 0 z) g)
    (hs : ∀ (n : ℕ) (h : n + 1 < 50) (g : Fin 1024),
      cnt (n + 1) h (ix2 g 0) = cnt n (Nat.lt_of_succ_lt h) (ix2 g 0) + gainCount (bg (n + 1) h) g)
    (l : 49 < 50) (g : Fin 1024) :
    cnt 49 l (ix2 g 0) = Spec.count n2g g.val := by
  refine LibTile.acc_last_eq_sum (m := 50) (n := 2000) (N := 100000) rfl (by decide)
    (fun r => Spec.hit (n2g (ix2 r 0)) g.val * Spec.oneB)
    (fun n => if h : n < 50 then cnt n h (ix2 g 0) else 0)
    (fun t p => if h : t < 50 then Spec.hit (bg t h (ix2 p 0)) g.val * Spec.oneB else 0) ?_ ?_ ?_
  · intro t ht p
    show (if h : t < 50 then _ else 0) = Spec.hit (n2g (ix2 (row t ht p) 0)) g.val * Spec.oneB
    rw [dif_pos ht, hg t ht]
  · have h := h0 (by decide) g
    rw [show Spec.zero = (0 : EReal) from Ideal.ofBits_zero_f32] at h
    unfold gainCount at h
    simp only [dif_pos (show (0 : ℕ) < 50 by decide)]
    exact h
  · intro k hk
    have h := hs k hk g
    unfold gainCount at h
    simp only [dif_pos hk, dif_pos (Nat.lt_of_succ_lt hk)]
    exact h

end Count

end Cert.KernelIdeal.ReadoutAcc

end
-- ==== Proof.KIReadoutPay.lean ====
import proofs.«418009_j9234179686415_3_alg».proof.Proof.Gen.KernelIdeal.Skeleton
import proofs.«418009_j9234179686415_3_alg».proof.Proof.KISpec
import proofs.«418009_j9234179686415_3_alg».proof.Proof.LibDotPlain
import proofs.«418009_j9234179686415_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.ReadoutPay

open Cert.KernelIdeal Cert.KernelIdeal.Gen
open Idealize.ShloMosaic Idealize.ShloMosaic.ValueIdx

theorem pay4_apply (i : S1024x64.Idx) : Gen.k1_pay4 (F := Ideal) i = Spec.zero := by
  unfold Gen.k1_pay4
  rw [shapeCast_self]
  rfl

theorem pay5_apply (i : S1024x1.Idx) : Gen.k1_pay5 (F := Ideal) i = Spec.zero := by
  unfold Gen.k1_pay5
  rw [shapeCast_self]
  rfl

theorem pay1_apply (v : FVec Ideal S1024x64 .f32) (i : S1024x64.Idx) : Gen.k1_pay1 v i = v i := by
  unfold Gen.k1_pay1
  rw [shapeCast_self]

/-- A word comparison, widened and read as a signed integer, is one where the words agree and zero elsewhere. -/
theorem eqWord_toReal (a w : BitVec 32) :
    ((((IntOp.cmpi .eq a w).setWidth 32).toInt : ℝ) : EReal) = if w = a then 1 else 0 := by
  by_cases h : w = a
  · subst h
    rw [if_pos rfl]
    have : IntOp.cmpi .eq w w = 1#1 := by
      show BitVec.ofBool (w == w) = 1#1
      rw [beq_self_eq_true]; rfl
    rw [this]
    norm_num
  · rw [if_neg h]
    have hne : (a == w) = false := beq_eq_false_iff_ne.mpr (Ne.symm h)
    have : IntOp.cmpi .eq a w = 0#1 := by
      show BitVec.ofBool (a == w) = 0#1
      rw [hne]; rfl
    rw [this]
    norm_num

theorem pay6_apply (v24 : Vec Ideal S2000x1 .i32) (p : Fin 2000) (g : Fin 1024) :
    Gen.k1_pay6 (F := Ideal) v24 (ix2 p g) = Spec.hit (v24 (ix2 p 0)) g.val := by
  unfold Gen.k1_pay6
  rw [shapeCast_self]
  rw [truncf_apply, sitofp_apply, extui_apply]
  show FloatOps.sitofp (F := Ideal) .f32 ((IntOp.cmpi .eq (iota .tc S2000x1024 32 [1] iota_S2000x1024_d1_w32 (ix2 p g))
    (broadcastTo S2000x1024 v24 broadcasts_S2000x1_S2000x1024 (ix2 p g))).setWidth 32) = _
  rw [iota_single_apply, LibColumn.broadcastTo_a1_ab_apply]
  exact eqWord_toReal _ _

/-- A product contracting the rows of both operands: entry (g, e) sums A (p, g) · B (p, e) over p. -/
theorem matmul_col0_apply {φ₁ φ₂ : FTy} (A : FVec Ideal S2000x1024 φ₁) (B : FVec Ideal S2000x64 φ₂) (g : Fin 1024) (e : Fin 64) :
    matmul dot_S2000x1024_S2000x64_S1024x64_0_0_1_1_n_n none A B (constant (F := Ideal) S1024x64 .f32 0x00000000#32) (ix2 g e)
      = ∑ p : Fin 2000, A (ix2 p g) * B (ix2 p e) :=
  LibDotPlain.matmul_tn_zero_apply dot_S2000x1024_S2000x64_S1024x64_0_0_1_1_n_n_wf none A B g e

theorem matmul_col0_count_apply {φ₁ φ₂ : FTy} (A : FVec Ideal S2000x1024 φ₁) (B : FVec Ideal S2000x1 φ₂) (g : Fin 1024) (u : Fin 1) :
    matmul dot_S2000x1024_S2000x1_S1024x1_0_0_1_1_n_n none A B (constant (F := Ideal) S1024x1 .f32 0x00000000#32) (ix2 g u)
      = ∑ p : Fin 2000, A (ix2 p g) * B (ix2 p u) :=
  LibDotPlain.matmul_tn_zero_apply dot_S2000x1024_S2000x1_S1024x1_0_0_1_1_n_n_wf none A B g u

theorem matmul_layer_apply {φ₁ φ₂ : FTy} (A : FVec Ideal S2000x64 φ₁) (B : FVec Ideal S64x64 φ₂) (p : Fin 2000) (e : Fin 64) :
    matmul dot_S2000x64_S64x64_S2000x64_1_0_0_1_n_n none A B (constant (F := Ideal) S2000x64 .f32 0x00000000#32) (ix2 p e)
      = ∑ k : Fin 64, A (ix2 p k) * B (ix2 k e) :=
  LibDotPlain.matmul_zero_apply dot_S2000x64_S64x64_S2000x64_1_0_0_1_n_n_wf none A B p e

theorem matmul_fc_apply {φ₁ φ₂ : FTy} (A : FVec Ideal S1024x64 φ₁) (B : FVec Ideal S64x1 φ₂) (g : Fin 1024) (u : Fin 1) :
    matmul dot_S1024x64_S64x1_S1024x1_1_0_0_1_n_n none A B (constant (F := Ideal) S1024x1 .f32 0x00000000#32) (ix2 g u)
      = ∑ k : Fin 64, A (ix2 g k) * B (ix2 k u) :=
  LibDotPlain.matmul_zero_apply dot_S1024x64_S64x1_S1024x1_1_0_0_1_n_n_wf none A B g u

/-- The feature accumulator after a point: what it held plus the point's rows of graph g at feature e. -/
theorem pay7_apply (v3 v6 : Vec Ideal S2000x64 .f32) (v8 : Vec Ideal S2000x1 .f32) (v17 v19 : Vec Ideal S64x64 .f32)
    (v24 : Vec Ideal S2000x1 .i32) (v33 : Vec Ideal S1024x64 .f32) (g : Fin 1024) (e : Fin 64) :
    Gen.k1_pay7 (F := Ideal) v3 v6 v8 v17 v19 v24 v33 (ix2 g e)
      = v33 (ix2 g e) + ∑ p : Fin 2000, Spec.hit (v24 (ix2 p 0)) g.val
          * Spec.sagePre (fun k => v3 (ix2 p k)) (fun k => v6 (ix2 p k)) (Spec.invClip (v8 (ix2 p 0)))
              (fun k => v17 (ix2 k e)) (fun k => v19 (ix2 k e)) := by
  unfold Gen.k1_pay7
  rw [addf_apply, matmul_col0_apply]
  refine congrArg (v33 (ix2 g e) + ·) (Finset.sum_congr rfl fun p _ => ?_)
  rw [pay6_apply, truncf_apply, addf_apply, matmul_layer_apply, matmul_layer_apply]
  simp only [truncf_apply, shapeCast_self, mulf_apply, LibColumn.broadcastTo_a1_ab_apply, divf_apply, maximumf_apply,
    broadcast_apply]
  rfl

theorem pay2_apply (v24 : Vec Ideal S2000x1 .i32) (v40 : Vec Ideal S1024x1 .f32) (g : Fin 1024) :
    Gen.k1_pay2 (F := Ideal) (Gen.k1_pay6 v24) v40 (ix2 g 0)
      = v40 (ix2 g 0) + ∑ p : Fin 2000, Spec.hit (v24 (ix2 p 0)) g.val * Spec.oneB := by
  unfold Gen.k1_pay2
  rw [shapeCast_self, addf_apply, matmul_col0_count_apply]
  refine congrArg (v40 (ix2 g 0) + ·) (Finset.sum_congr rfl fun p _ => ?_)
  rw [pay6_apply, broadcast_apply]
  rfl

theorem logistic_apply {s : Shape} {φ : FTy} (x : FVec Ideal s φ) (i : s.Idx) : logistic x i = Ideal.logistic (x i) := rfl

/-- The stored read-out: the logistic of the pooled means' product with the last linear map. -/
theorem pay3_apply (v49 : Vec Ideal S1024x64 .f32) (v50 : Vec Ideal S1024x1 .f32) (v55 : Vec Ideal S64x1 .f32) (g : Fin 1024) :
    Gen.k1_pay3 (F := Ideal) v49 v50 v55 (ix2 g 0)
      = Ideal.logistic (∑ e : Fin 64, Ideal.div (v49 (ix2 g e)) (max (v50 (ix2 g 0)) Spec.one) * v55 (ix2 e 0)) := by
  unfold Gen.k1_pay3
  rw [logistic_apply, matmul_fc_apply]
  refine congrArg Ideal.logistic (Finset.sum_congr rfl fun e _ => ?_)
  simp only [truncf_apply, divf_apply, LibColumn.broadcastTo_a1_ab_apply, maximumf_apply, broadcast_apply]
  rfl

end Cert.KernelIdeal.ReadoutPay

end
-- ==== Proof.KIReadoutBlocks.lean ====
import proofs.«418009_j9234179686415_3_alg».proof.Proof.KIRegion1
import proofs.«418009_j9234179686415_3_alg».proof.Proof.KISpec
import Idealize.ShloMosaic.Lib.Pipeline.Value
import Idealize.ShloMosaic.Lib.ValueIdx

set_option maxRecDepth 16384

noncomputable section

namespace Cert.KernelIdeal.ReadoutBlocks

open Cert.KernelIdeal Cert.KernelIdeal.Gen
open Idealize.ShloMosaic Idealize.ShloMosaic.TcCoe Idealize.ShloMosaic.ValueIdx
open Idealize.ShloMosaic.Pipeline (Dat Cfg Window)

theorem lt_50 (t : Fin cfg1.N) : t.val < 50 := Nat.lt_of_lt_of_eq t.isLt N_1

theorem row_lt (t : Fin cfg1.N) (p : Fin 2000) : 2000 * t.val + p.val < 100000 := by
  have := lt_50 t; have := p.isLt; omega

def row (t : Fin cfg1.N) (p : Fin 2000) : Fin 100000 := ⟨2000 * t.val + p.val, row_lt t p⟩

theorem row_val (t : Fin cfg1.N) (p : Fin 2000) : (row t p).val = 2000 * t.val + p.val := rfl

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

variable (V : (c : Dev nD) → (b : Ref sig .tc) → Buf (Elt Ideal) ((c : Thread nD τ).loc b))

theorem blk0_apply (c : Dev nD) (t : Fin cfg1.N) (p : Fin 2000) (k : Fin 64) :
    (Region1.iblk1 (F := Ideal) V c 0 t : Vec Ideal S2000x64 .f32) (ix2 p k) = (V c main_v17 : Spec.Arr 100000 64) (ix2 (row t p) k) := by
  obtain ⟨e0, e1, -⟩ := idx_facts t
  exact congrArg (V c main_v17 : Spec.Arr 100000 64) (Shape.idx_ext₂ (by show win1_0.index t (0 : Fin 2) * 2000 + 1 * p.val = 2000 * t.val + p.val; omega) (by show win1_0.index t (1 : Fin 2) * 64 + 1 * k.val = k.val; omega))

theorem blk1_apply (c : Dev nD) (t : Fin cfg1.N) (p : Fin 2000) (k : Fin 64) :
    (Region1.iblk1 (F := Ideal) V c 1 t : Vec Ideal S2000x64 .f32) (ix2 p k) = (V c main_v29 : Spec.Arr 100000 64) (ix2 (row t p) k) := by
  obtain ⟨-, -, e0, e1, -⟩ := idx_facts t
  exact congrArg (V c main_v29 : Spec.Arr 100000 64) (Shape.idx_ext₂ (by show win1_1.index t (0 : Fin 2) * 2000 + 1 * p.val = 2000 * t.val + p.val; omega) (by show win1_1.index t (1 : Fin 2) * 64 + 1 * k.val = k.val; omega))

theorem blk2_apply (c : Dev nD) (t : Fin cfg1.N) (p : Fin 2000) :
    (Region1.iblk1 (F := Ideal) V c 2 t : Vec Ideal S2000x1 .f32) (ix2 p 0) = (V c main_v4 : Spec.Arr 100000 1) (ix2 (row t p) 0) := by
  obtain ⟨-, -, -, -, e0, e1, -⟩ := idx_facts t
  exact congrArg (V c main_v4 : Spec.Arr 100000 1) (Shape.idx_ext₂ (by show win1_2.index t (0 : Fin 2) * 2000 + 1 * p.val = 2000 * t.val + p.val; omega) (by show win1_2.index t (1 : Fin 2) * 1 + 1 * 0 = 0; omega))

theorem blk3_apply (c : Dev nD) (t : Fin cfg1.N) (p : Fin 2000) :
    (Region1.iblk1 (F := Ideal) V c 3 t : Vec Ideal S2000x1 .i32) (ix2 p 0) = (V c main_v30 : Spec.IArr 100000 1) (ix2 (row t p) 0) := by
  obtain ⟨-, -, -, -, -, -, e0, e1, -⟩ := idx_facts t
  exact congrArg (V c main_v30 : Spec.IArr 100000 1) (Shape.idx_ext₂ (by show win1_3.index t (0 : Fin 2) * 2000 + 1 * p.val = 2000 * t.val + p.val; omega) (by show win1_3.index t (1 : Fin 2) * 1 + 1 * 0 = 0; omega))

theorem blk4_eq (c : Dev nD) (t : Fin cfg1.N) : (Region1.iblk1 (F := Ideal) V c 4 t : Spec.Arr 64 64) = V c main_arg3 := by
  obtain ⟨-, -, -, -, -, -, -, -, e0, e1, -⟩ := idx_facts t
  funext y
  exact congrArg (V c main_arg3 : Spec.Arr 64 64) (Shape.idx_ext₂ (by show win1_4.index t (0 : Fin 2) * 64 + 1 * (y 0).val = (y 0).val; omega) (by show win1_4.index t (1 : Fin 2) * 64 + 1 * (y 1).val = (y 1).val; omega))

theorem blk5_eq (c : Dev nD) (t : Fin cfg1.N) : (Region1.iblk1 (F := Ideal) V c 5 t : Spec.Arr 64 64) = V c main_arg4 := by
  obtain ⟨-, -, -, -, -, -, -, -, -, -, e0, e1, -⟩ := idx_facts t
  funext y
  exact congrArg (V c main_arg4 : Spec.Arr 64 64) (Shape.idx_ext₂ (by show win1_5.index t (0 : Fin 2) * 64 + 1 * (y 0).val = (y 0).val; omega) (by show win1_5.index t (1 : Fin 2) * 64 + 1 * (y 1).val = (y 1).val; omega))

theorem blk6_eq (c : Dev nD) (t : Fin cfg1.N) : (Region1.iblk1 (F := Ideal) V c 6 t : Spec.Arr 64 1) = V c main_arg5 := by
  obtain ⟨-, -, -, -, -, -, -, -, -, -, -, -, e0, e1⟩ := idx_facts t
  funext y
  exact congrArg (V c main_arg5 : Spec.Arr 64 1) (Shape.idx_ext₂ (by show win1_6.index t (0 : Fin 2) * 64 + 1 * (y 0).val = (y 0).val; omega) (by show win1_6.index t (1 : Fin 2) * 1 + 1 * (y 1).val = (y 1).val; omega))

end Cert.KernelIdeal.ReadoutBlocks

end
-- ==== Proof.KIReadoutArr.lean ====
import proofs.«418009_j9234179686415_3_alg».proof.Proof.KIRegion1
import proofs.«418009_j9234179686415_3_alg».proof.Proof.KISpec
import proofs.«418009_j9234179686415_3_alg».proof.Proof.KIReadoutAcc
import proofs.«418009_j9234179686415_3_alg».proof.Proof.KIReadoutPay
import proofs.«418009_j9234179686415_3_alg».proof.Proof.KIReadoutBlocks
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ReadoutArr

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem lt_N {n : ℕ} (h : n < 50) : n < cfg1.N := Nat.lt_of_lt_of_eq h (show (50 : ℕ) = cfg1.N from N_1.symm)

abbrev xblk (c : Dev nD) (t : Fin cfg1.N) : Vec Ideal S2000x64 .f32 := Region1.iblk1 V c 0 t
abbrev sblk (c : Dev nD) (t : Fin cfg1.N) : Vec Ideal S2000x64 .f32 := Region1.iblk1 V c 1 t
abbrev dblk (c : Dev nD) (t : Fin cfg1.N) : Vec Ideal S2000x1 .f32 := Region1.iblk1 V c 2 t
abbrev gblk (c : Dev nD) (t : Fin cfg1.N) : Vec Ideal S2000x1 .i32 := Region1.iblk1 V c 3 t
abbrev wsblk (c : Dev nD) (t : Fin cfg1.N) : Vec Ideal S64x64 .f32 := Region1.iblk1 V c 4 t
abbrev wnblk (c : Dev nD) (t : Fin cfg1.N) : Vec Ideal S64x64 .f32 := Region1.iblk1 V c 5 t
abbrev wfblk (c : Dev nD) (t : Fin cfg1.N) : Vec Ideal S64x1 .f32 := Region1.iblk1 V c 6 t

theorem acc_zero (c : Dev nD) (h : 0 < cfg1.N) (g : Fin 1024) (e : Fin 64) :
    (Region1.outsAt1 V c 0 h).2.1 (ix2 g e)
      = Spec.zero + ReadoutAcc.gain (xblk V c ⟨0, h⟩) (sblk V c ⟨0, h⟩) (dblk V c ⟨0, h⟩) (gblk V c ⟨0, h⟩)
          (wsblk V c ⟨0, h⟩) (wnblk V c ⟨0, h⟩) g e := by
  refine (congrFun (Region1.sc9_zero V c h) (ix2 g e)).trans ?_
  refine (ReadoutPay.pay1_apply _ (ix2 g e)).trans ?_
  refine (ReadoutPay.pay7_apply (xblk V c ⟨0, h⟩) (sblk V c ⟨0, h⟩) (dblk V c ⟨0, h⟩) (wsblk V c ⟨0, h⟩) (wnblk V c ⟨0, h⟩)
    (gblk V c ⟨0, h⟩) (Gen.k1_pay4 (F := Ideal)) g e).trans ?_
  rw [ReadoutPay.pay4_apply]
  rfl

theorem acc_succ (c : Dev nD) (n : ℕ) (h : n + 1 < cfg1.N) (g : Fin 1024) (e : Fin 64) :
    (Region1.outsAt1 V c (n + 1) h).2.1 (ix2 g e)
      = (Region1.outsAt1 V c n (Nat.lt_of_succ_lt h)).2.1 (ix2 g e)
        + ReadoutAcc.gain (xblk V c ⟨n + 1, h⟩) (sblk V c ⟨n + 1, h⟩) (dblk V c ⟨n + 1, h⟩) (gblk V c ⟨n + 1, h⟩)
            (wsblk V c ⟨n + 1, h⟩) (wnblk V c ⟨n + 1, h⟩) g e := by
  refine (congrFun (Region1.sc9_succ V c n h) (ix2 g e)).trans ?_
  refine (ReadoutPay.pay1_apply _ (ix2 g e)).trans ?_
  exact ReadoutPay.pay7_apply (xblk V c ⟨n + 1, h⟩) (sblk V c ⟨n + 1, h⟩) (dblk V c ⟨n + 1, h⟩) (wsblk V c ⟨n + 1, h⟩)
    (wnblk V c ⟨n + 1, h⟩) (gblk V c ⟨n + 1, h⟩) (Region1.outsAt1 V c n (Nat.lt_of_succ_lt h)).2.1 g e

theorem cnt_zero (c : Dev nD) (h : 0 < cfg1.N) (g : Fin 1024) :
    (Region1.outsAt1 V c 0 h).2.2 (ix2 g 0) = Spec.zero + ReadoutAcc.gainCount (gblk V c ⟨0, h⟩) g := by
  refine (congrFun (Region1.sc10_zero V c h) (ix2 g 0)).trans ?_
  refine (ReadoutPay.pay2_apply (gblk V c ⟨0, h⟩) (Gen.k1_pay5 (F := Ideal)) g).trans ?_
  rw [ReadoutPay.pay5_apply]
  rfl

theorem cnt_succ (c : Dev nD) (n : ℕ) (h : n + 1 < cfg1.N) (g : Fin 1024) :
    (Region1.outsAt1 V c (n + 1) h).2.2 (ix2 g 0)
      = (Region1.outsAt1 V c n (Nat.lt_of_succ_lt h)).2.2 (ix2 g 0) + ReadoutAcc.gainCount (gblk V c ⟨n + 1, h⟩) g := by
  refine (congrFun (Region1.sc10_succ V c n h) (ix2 g 0)).trans ?_
  exact ReadoutPay.pay2_apply (gblk V c ⟨n + 1, h⟩) (Region1.outsAt1 V c n (Nat.lt_of_succ_lt h)).2.2 g

/-- After the last point the feature accumulator holds the sums over all nodes. -/
theorem pooled49 (c : Dev nD) (h : 49 < cfg1.N) (g : Fin 1024) (e : Fin 64) :
    (Region1.outsAt1 V c 49 h).2.1 (ix2 g e)
      = Spec.pooled (V c main_v17) (V c main_v29) (V c main_v4) (V c main_v30) (V c main_arg3) (V c main_arg4) g.val e := by
  have l : 49 < 50 := by decide
  have e1 : Region1.outsAt1 V c 49 h = Region1.outsAt1 V c 49 (lt_N l) := rfl
  rw [e1]
  have key := ReadoutAcc.pooled_last (V c main_v17) (V c main_v29) (V c main_v4) (V c main_v30) (V c main_arg3) (V c main_arg4)
    (fun n hn => (Region1.outsAt1 V c n (lt_N hn)).2.1)
    (fun n hn => xblk V c ⟨n, lt_N hn⟩) (fun n hn => sblk V c ⟨n, lt_N hn⟩) (fun n hn => dblk V c ⟨n, lt_N hn⟩)
    (fun n hn => gblk V c ⟨n, lt_N hn⟩) (fun n hn => wsblk V c ⟨n, lt_N hn⟩) (fun n hn => wnblk V c ⟨n, lt_N hn⟩)
    (fun t ht p k => ReadoutBlocks.blk0_apply V c ⟨t, lt_N ht⟩ p k) (fun t ht p k => ReadoutBlocks.blk1_apply V c ⟨t, lt_N ht⟩ p k)
    (fun t ht p => ReadoutBlocks.blk2_apply V c ⟨t, lt_N ht⟩ p) (fun t ht p => ReadoutBlocks.blk3_apply V c ⟨t, lt_N ht⟩ p)
    (fun t ht k e => congrFun (ReadoutBlocks.blk4_eq V c ⟨t, lt_N ht⟩) (ix2 k e))
    (fun t ht k e => congrFun (ReadoutBlocks.blk5_eq V c ⟨t, lt_N ht⟩) (ix2 k e))
    (fun z g e => acc_zero V c (lt_N z) g e) (fun n hn g e => acc_succ V c n (lt_N hn) g e) l g e
  exact key

theorem count49 (c : Dev nD) (h : 49 < cfg1.N) (g : Fin 1024) :
    (Region1.outsAt1 V c 49 h).2.2 (ix2 g 0) = Spec.count (V c main_v30) g.val := by
  have l : 49 < 50 := by decide
  have e1 : Region1.outsAt1 V c 49 h = Region1.outsAt1 V c 49 (lt_N l) := rfl
  rw [e1]
  have key := ReadoutAcc.count_last (V c main_v30)
    (fun n hn => (Region1.outsAt1 V c n (lt_N hn)).2.2)
    (fun n hn => gblk V c ⟨n, lt_N hn⟩)
    (fun t ht p => ReadoutBlocks.blk3_apply V c ⟨t, lt_N ht⟩ p)
    (fun z g => cnt_zero V c (lt_N z) g) (fun n hn g => cnt_succ V c n (lt_N hn) g) l g
  exact key

theorem term_congr {a a' b b' w w' : EReal} (ha : a = a') (hb : b = b') (hw : w = w') :
    Ideal.div a (max b Spec.one) * w = Ideal.div a' (max b' Spec.one) * w' := by
  subst ha; subst hb; subst hw; rfl

theorem out_at_last (c : Dev nD) (n : ℕ) (h : n < cfg1.N) (h49 : n = 49) (g : Fin 1024) :
    (Region1.outsAt1 V c n h).1 (ix2 g 0)
      = Spec.readout (V c main_v17) (V c main_v29) (V c main_v4) (V c main_v30) (V c main_arg3) (V c main_arg4)
          (V c main_arg5) (ix2 g 0) := by
  subst h49
  refine (congrFun (Region1.out7_last V c h) (ix2 g 0)).trans ?_
  refine (ReadoutPay.pay3_apply (Region1.outsAt1 V c 49 h).2.1 (Region1.outsAt1 V c 49 h).2.2 (wfblk V c ⟨49, h⟩) g).trans ?_
  rw [Spec.readout_apply]
  refine congrArg Ideal.logistic (Finset.sum_congr rfl fun e _ => ?_)
  exact term_congr (pooled49 V c h g e) (count49 V c h g) (congrFun (ReadoutBlocks.blk6_eq V c ⟨49, h⟩) (ix2 e 0))

theorem idx_facts7 : ∀ t : Fin cfg1.N, win1_7.index t (0 : Fin 2) = 0 ∧ win1_7.index t (1 : Fin 2) = 0 :=
  (by decide +kernel : ∀ t : Fin grid1.N, _)

/-- Only the last point writes back, and its block is the whole array. -/
theorem flushed_eq (c : Dev nD) (t : Fin cfg1.N) (hf : (cfg1.win 7).flush t = true) :
    (Region1.dat1 (F := Ideal) V c).flushed 7 t
      = ((cfg1.win 7).blk t).view.read (Elt Ideal)
          (Spec.readout (V c main_v17) (V c main_v29) (V c main_v4) (V c main_v30) (V c main_arg3) (V c main_arg4) (V c main_arg5)) := by
  have ht : t.val = 49 := by have h1 := ReadoutBlocks.lt_50 t; have h2 := (flush1_7 t).mp hf; omega
  show (cfg1.win 7).cut (grid1.coords t) ((Region1.dat1 (F := Ideal) V c).after 7 t) = _
  rw [Region1.after1_7]
  refine funext fun (y : S1024x1.Idx) => ?_
  obtain ⟨g, q, rfl⟩ : ∃ (g : Fin 1024) (q : Fin 1), y = ix2 g q := ⟨y 0, y 1, eq_ix2 y⟩
  obtain rfl : q = 0 := Subsingleton.elim _ _
  obtain ⟨e0, e1⟩ := idx_facts7 t
  have hemb : ((cfg1.win 7).blk t).view.emb (ix2 g (0 : Fin 1)) = (ix2 g (0 : Fin 1) : S1024x1.Idx) := by
    exact Shape.idx_ext₂ (by show win1_7.index t (0 : Fin 2) * 1024 + 1 * g.val = g.val; omega) (by show win1_7.index t (1 : Fin 2) * 1 + 1 * 0 = 0; omega)
  refine (out_at_last V c t.val t.isLt ht g).trans ?_
  rw [View.read_apply, hemb]
  exact (cast_eq _ _).symm

theorem cover7 (i : S1024x1.Idx) : ∃ t : Fin cfg1.N, (cfg1.win 7).flush t = true ∧ i ∈ ((cfg1.win 7).blk t).view.set := by
  have hi0 : (i 0).val < 1024 := (i 0).isLt
  have hi1 : (i 1).val < 1 := (i 1).isLt
  obtain ⟨t, ht⟩ : ∃ t : Fin cfg1.N, t.val = 49 := ⟨⟨49, lt_N (by decide)⟩, rfl⟩
  obtain ⟨e0, e1⟩ := idx_facts7 t
  refine ⟨t, (flush1_7 t).mpr (by omega), ?_⟩
  show i ∈ ((View.whole main_v31).slice (win1_7.rect t)).set
  rw [View.set_slice_whole, Rect.mem_set_unit]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 1 ≤ (i 1).val ∧ (i 1).val < win1_7.index t (1 : Fin 2) * 1 + 1; omega

/-- The result array after the call is the read-out of the arrays the call was entered with. -/
theorem readout_arr (c : Dev nD) :
    ((Region1.dat1 (F := Ideal) V c).arrAt 7 cfg1.N : Spec.Arr 1024 1)
      = Spec.readout (V c main_v17) (V c main_v29) (V c main_v4) (V c main_v30) (V c main_arg3) (V c main_arg4) (V c main_arg5) :=
  (Region1.dat1 (F := Ideal) V c).arrAt_eq_of_cover 7
    (Spec.readout (V c main_v17) (V c main_v29) (V c main_v4) (V c main_v30) (V c main_arg3) (V c main_arg4) (V c main_arg5))
    (fun t hf => flushed_eq V c t hf) cover7

end Cert.KernelIdeal.ReadoutArr

end
-- ==== Proof.LibScatterRows.lean ====
import Idealize.ShloMosaic.PureOps.Ideal
import Idealize.ShloMosaic.PureOps.Contract
import Idealize.ShloMosaic.Lib.ValueIdx

noncomputable section

open scoped BigOperators

namespace Cert.ScatterRows

open Idealize.ShloMosaic Idealize.ShloMosaic.ValueIdx

abbrev scatterRowsDims {R C M : Nat}
    (wf : ScatterDims.WF ⟨2, ![R, C]⟩ ⟨2, ![M, 1]⟩ ⟨2, ![M, C]⟩ [1] [0] [0] 1) :
    ScatterDims ⟨2, ![R, C]⟩ ⟨2, ![M, 1]⟩ ⟨2, ![M, C]⟩ where
  updateWindowDims := [1]
  insertedWindowDims := [0]
  scatterDimsToOperandDims := [0]
  indexVectorDim := 1
  wf := wf

theorem scatterRows_start0 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (0 : Fin 2) = (idx (ix2 p (0 : Fin 1))).toInt := by
  have hm : (0 : Fin 2) ∈ (scatterRowsDims wf).scatterDimsToOperandDims := by
    show (0 : Fin 2) ∈ ([0] : List (Fin 2)); decide
  unfold ScatterDims.start
  rw [dif_pos hm]
  have hsi : (scatterRowsDims wf).siIdx (ix2 p q) ⟨List.idxOf (0 : Fin 2) (scatterRowsDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

theorem scatterRows_start1 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (1 : Fin 2) = 0 := by
  have hm : (1 : Fin 2) ∉ (scatterRowsDims wf).scatterDimsToOperandDims := by
    show (1 : Fin 2) ∉ ([0] : List (Fin 2)); decide
  unfold ScatterDims.start
  rw [dif_neg hm]

theorem scatterRows_window0 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (0 : Fin 2) = 0 := by
  have hk : (0 : Fin 2) ∉ (scatterRowsDims wf).sKept := by
    show (0 : Fin 2) ∉ ((List.finRange 2).filter (fun a => a ∉ ([0] : List (Fin 2)))); decide
  unfold ScatterDims.window
  rw [dif_neg hk]

theorem scatterRows_window1 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (1 : Fin 2) = q.val := by
  have hk : (1 : Fin 2) ∈ (scatterRowsDims wf).sKept := by
    show (1 : Fin 2) ∈ ((List.finRange 2).filter (fun a => a ∉ ([0] : List (Fin 2)))); decide
  unfold ScatterDims.window
  rw [dif_pos hk]
  rfl

theorem scatterRows_resultIdx_iff {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) (n : Fin R) (o : Fin C) :
    (scatterRowsDims wf).resultIdx? (ix2 p q) idx = some (ix2 n o)
      ↔ (idx (ix2 p (0 : Fin 1))).toInt = (n.val : Int) ∧ q = o := by
  have h0 : (scatterRowsDims wf).start (ix2 p q) idx (0 : Fin 2) + (scatterRowsDims wf).window (ix2 p q) (0 : Fin 2)
      = (idx (ix2 p (0 : Fin 1))).toInt := by
    rw [scatterRows_start0, scatterRows_window0]; simp
  have h1 : (scatterRowsDims wf).start (ix2 p q) idx (1 : Fin 2) + (scatterRowsDims wf).window (ix2 p q) (1 : Fin 2)
      = (q.val : Int) := by
    rw [scatterRows_start1, scatterRows_window1]; simp
  unfold ScatterDims.resultIdx?
  constructor
  · intro h
    split_ifs at h with hc
    have e := Option.some.inj h
    have e0 : ((scatterRowsDims wf).start (ix2 p q) idx (0 : Fin 2)
        + (scatterRowsDims wf).window (ix2 p q) (0 : Fin 2)).toNat = n.val := congrArg Fin.val (congrFun e (0 : Fin 2))
    have e1 : ((scatterRowsDims wf).start (ix2 p q) idx (1 : Fin 2)
        + (scatterRowsDims wf).window (ix2 p q) (1 : Fin 2)).toNat = o.val := congrArg Fin.val (congrFun e (1 : Fin 2))
    have c0 := (hc (0 : Fin 2)).1
    rw [h0] at e0 c0
    rw [h1] at e1
    refine ⟨by omega, Fin.ext (by omega)⟩
  · rintro ⟨hn, rfl⟩
    have hc : ∀ a : Fin 2, 0 ≤ (scatterRowsDims wf).start (ix2 p q) idx a + (scatterRowsDims wf).window (ix2 p q) a
        ∧ (scatterRowsDims wf).start (ix2 p q) idx a + (scatterRowsDims wf).window (ix2 p q) a
          < (⟨2, ![R, C]⟩ : Shape).size a := by
      intro a
      match a with
      | ⟨0, _⟩ =>
        show 0 ≤ (scatterRowsDims wf).start (ix2 p q) idx (0 : Fin 2) + (scatterRowsDims wf).window (ix2 p q) (0 : Fin 2)
          ∧ (scatterRowsDims wf).start (ix2 p q) idx (0 : Fin 2) + (scatterRowsDims wf).window (ix2 p q) (0 : Fin 2)
            < (R : Int)
        rw [h0, hn]; have := n.isLt; omega
      | ⟨1, _⟩ =>
        show 0 ≤ (scatterRowsDims wf).start (ix2 p q) idx (1 : Fin 2) + (scatterRowsDims wf).window (ix2 p q) (1 : Fin 2)
          ∧ (scatterRowsDims wf).start (ix2 p q) idx (1 : Fin 2) + (scatterRowsDims wf).window (ix2 p q) (1 : Fin 2)
            < (C : Int)
        rw [h1]; have := q.isLt; omega
    rw [dif_pos hc]
    congr 1
    funext a
    refine Fin.ext ?_
    match a with
    | ⟨0, _⟩ =>
      show ((scatterRowsDims wf).start (ix2 p q) idx (0 : Fin 2)
        + (scatterRowsDims wf).window (ix2 p q) (0 : Fin 2)).toNat = n.val
      rw [h0, hn]; rfl
    | ⟨1, _⟩ =>
      show ((scatterRowsDims wf).start (ix2 p q) idx (1 : Fin 2)
        + (scatterRowsDims wf).window (ix2 p q) (1 : Fin 2)).toNat = q.val
      rw [h1]; rfl

/-- A row scatter-add at (n, o): the operand there plus the updates' column o over the rows whose index word is n. -/
theorem scatter_rows_apply {R C M : Nat} (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![M, 1]⟩ 32) (upd : (⟨2, ![M, C]⟩ : Shape).Idx → EReal)
    (n : Fin R) (o : Fin C) :
    Host.scatterAdd (F := Ideal) (φ := .f32) d x idx upd (ix2 n o)
      = x (ix2 n o) + ∑ p ∈ Finset.univ.filter (fun p : Fin M => (idx (ix2 p (0 : Fin 1))).toInt = (n.val : Int)),
          upd (ix2 p o) := by
  obtain ⟨uw, iw, sd, iv, wf⟩ := d
  dsimp only at huw hiw hsd hiv
  subst huw hiw hsd hiv
  show Ideal.hostScatterAdd (scatterRowsDims wf) x idx upd (ix2 n o) = _
  unfold Ideal.hostScatterAdd
  congr 1

  rw [Finset.sum_filter, Finset.sum_filter, sum_idx2]
  refine Finset.sum_congr rfl fun p _ => ?_

  simp only [scatterRows_resultIdx_iff]
  by_cases hp : (idx (ix2 p (0 : Fin 1))).toInt = (n.val : Int)
  · simp only [hp, true_and, if_true]
    exact (Finset.sum_ite_eq' Finset.univ o fun q => upd (ix2 p q)).trans (if_pos (Finset.mem_univ o))
  · simp only [hp, false_and, if_false]
    exact Finset.sum_const_zero

end Cert.ScatterRows

end
-- ==== Proof.LibScatterVec.lean ====
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.ScatterVec

open Idealize.ShloMosaic Idealize.ShloMosaic.ValueIdx

abbrev scatterVecDims {R M : Nat}
    (wf : ScatterDims.WF ⟨1, ![R]⟩ ⟨2, ![M, 1]⟩ ⟨1, ![M]⟩ [] [0] [0] 1) :
    ScatterDims ⟨1, ![R]⟩ ⟨2, ![M, 1]⟩ ⟨1, ![M]⟩ where
  updateWindowDims := []
  insertedWindowDims := [0]
  scatterDimsToOperandDims := [0]
  indexVectorDim := 1
  wf := wf

theorem scatterVec_start {R M : Nat}
    (wf : ScatterDims.WF ⟨1, ![R]⟩ ⟨2, ![M, 1]⟩ ⟨1, ![M]⟩ [] [0] [0] 1)
    (idx : IVec ⟨2, ![M, 1]⟩ 32) (p : Fin M) :
    (scatterVecDims wf).start (ix1 p) idx (0 : Fin 1) = (idx (ix2 p (0 : Fin 1))).toInt := by
  have hm : (0 : Fin 1) ∈ (scatterVecDims wf).scatterDimsToOperandDims := by
    show (0 : Fin 1) ∈ ([0] : List (Fin 1)); decide
  unfold ScatterDims.start
  rw [dif_pos hm]
  have hsi : (scatterVecDims wf).siIdx (ix1 p) ⟨List.idxOf (0 : Fin 1) (scatterVecDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

theorem scatterVec_window {R M : Nat}
    (wf : ScatterDims.WF ⟨1, ![R]⟩ ⟨2, ![M, 1]⟩ ⟨1, ![M]⟩ [] [0] [0] 1) (p : Fin M) :
    (scatterVecDims wf).window (ix1 p) (0 : Fin 1) = 0 := by
  have hk : (0 : Fin 1) ∉ (scatterVecDims wf).sKept := by
    show (0 : Fin 1) ∉ ((List.finRange 1).filter (fun a => a ∉ ([0] : List (Fin 1)))); decide
  unfold ScatterDims.window
  rw [dif_neg hk]

theorem scatterVec_resultIdx_iff {R M : Nat}
    (wf : ScatterDims.WF ⟨1, ![R]⟩ ⟨2, ![M, 1]⟩ ⟨1, ![M]⟩ [] [0] [0] 1)
    (idx : IVec ⟨2, ![M, 1]⟩ 32) (p : Fin M) (n : Fin R) :
    (scatterVecDims wf).resultIdx? (ix1 p) idx = some (ix1 n)
      ↔ (idx (ix2 p (0 : Fin 1))).toInt = (n.val : Int) := by
  have h0 : (scatterVecDims wf).start (ix1 p) idx (0 : Fin 1) + (scatterVecDims wf).window (ix1 p) (0 : Fin 1)
      = (idx (ix2 p (0 : Fin 1))).toInt := by
    rw [scatterVec_start, scatterVec_window]; simp
  unfold ScatterDims.resultIdx?
  constructor
  · intro h
    split_ifs at h with hc
    have e := Option.some.inj h
    have e0 : ((scatterVecDims wf).start (ix1 p) idx (0 : Fin 1)
        + (scatterVecDims wf).window (ix1 p) (0 : Fin 1)).toNat = n.val := congrArg Fin.val (congrFun e (0 : Fin 1))
    have c0 := (hc (0 : Fin 1)).1
    rw [h0] at e0 c0
    omega
  · intro hn
    have hc : ∀ a : Fin 1, 0 ≤ (scatterVecDims wf).start (ix1 p) idx a + (scatterVecDims wf).window (ix1 p) a
        ∧ (scatterVecDims wf).start (ix1 p) idx a + (scatterVecDims wf).window (ix1 p) a
          < (⟨1, ![R]⟩ : Shape).size a := by
      intro a
      match a with
      | ⟨0, _⟩ =>
        show 0 ≤ (scatterVecDims wf).start (ix1 p) idx (0 : Fin 1) + (scatterVecDims wf).window (ix1 p) (0 : Fin 1)
          ∧ (scatterVecDims wf).start (ix1 p) idx (0 : Fin 1) + (scatterVecDims wf).window (ix1 p) (0 : Fin 1)
            < (R : Int)
        rw [h0, hn]; have := n.isLt; omega
    rw [dif_pos hc]
    congr 1
    funext a
    refine Fin.ext ?_
    match a with
    | ⟨0, _⟩ =>
      show ((scatterVecDims wf).start (ix1 p) idx (0 : Fin 1)
        + (scatterVecDims wf).window (ix1 p) (0 : Fin 1)).toNat = n.val
      rw [h0, hn]; rfl

/-- A scatter-add into a vector at n: the operand there plus the updates whose index word is n. -/
theorem scatter_vec_apply {R M : Nat} (d : ScatterDims ⟨1, ![R]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![R]⟩ : Shape).Idx → EReal) (idx : IVec ⟨2, ![M, 1]⟩ 32) (upd : (⟨1, ![M]⟩ : Shape).Idx → EReal)
    (n : Fin R) :
    Host.scatterAdd (F := Ideal) (φ := .f32) d x idx upd (ix1 n)
      = x (ix1 n) + ∑ p ∈ Finset.univ.filter (fun p : Fin M => (idx (ix2 p (0 : Fin 1))).toInt = (n.val : Int)),
          upd (ix1 p) := by
  obtain ⟨uw, iw, sd, iv, wf⟩ := d
  dsimp only at huw hiw hsd hiv
  subst huw hiw hsd hiv
  show Ideal.hostScatterAdd (scatterVecDims wf) x idx upd (ix1 n) = _
  unfold Ideal.hostScatterAdd
  congr 1

  rw [Finset.sum_filter, Finset.sum_filter, ← Equiv.sum_comp (idxEquiv1 (n := M)).symm]
  refine Finset.sum_congr rfl fun p _ => ?_
  show (if (scatterVecDims wf).resultIdx? (ix1 p) idx = some (ix1 n) then upd (ix1 p) else 0) = _
  simp only [scatterVec_resultIdx_iff]

end Cert.ScatterVec

end
-- ==== Proof.KIReadoutBridge.lean ====
import proofs.«418009_j9234179686415_3_alg».proof.Proof.Gen.ReferenceIdeal.Read
import proofs.«418009_j9234179686415_3_alg».proof.Proof.KISpec
import proofs.«418009_j9234179686415_3_alg».proof.Proof.LibScatterRows
import proofs.«418009_j9234179686415_3_alg».proof.Proof.LibScatterVec
import proofs.«418009_j9234179686415_3_alg».proof.Proof.LibERealSage
import Idealize.ShloMosaic.PureOps.Ideal
import Idealize.ShloMosaic.PureOps.Ideal.Laws
import Idealize.ShloMosaic.Lib.ValueIdx

noncomputable section

open scoped BigOperators

namespace Cert.KernelIdeal.ReadoutBridge

open Cert.ReferenceIdeal Cert.ReferenceIdeal.Gen Cert.ReferenceIdeal.Read
open Idealize.ShloMosaic Idealize.ShloMosaic.ValueIdx Idealize.ShloMosaic.StableHlo
open Cert.LibERealSage

theorem one_word : Ideal.ofBits .f32 0x3F800000#32 = (1 : EReal) := by
  simp [Ideal.ofBits, Ideal.ieee, -EReal.coe_mul]; norm_num

theorem oneB_word : Ideal.ofBits .bf16 0x3F80#16 = (1 : EReal) := by
  simp [Ideal.ofBits, Ideal.ieee, -EReal.coe_mul]; norm_num

theorem toInt_ofNat_small (g : ℕ) (hg : g < 2 ^ 31) : (BitVec.ofNat 32 g).toInt = (g : Int) := by
  have hm : g % 2 ^ 32 = g := Nat.mod_eq_of_lt (by omega)
  have hn : (BitVec.ofNat 32 g).toNat = g := by rw [BitVec.toNat_ofNat, hm]
  rw [BitVec.toInt_eq_toNat_of_lt (by rw [hn]; omega), hn]

theorem toInt_eq_iff (w : BitVec 32) (g : ℕ) (hg : g < 2 ^ 31) :
    w.toInt = (g : Int) ↔ w = BitVec.ofNat 32 g := by
  constructor
  · intro h
    exact BitVec.toInt_inj.mp (h.trans (toInt_ofNat_small g hg).symm)
  · rintro rfl
    exact toInt_ofNat_small g hg

theorem deg_real (x7 : (⟨S1600000, .i32⟩ : BufTy).Contents (Elt Ideal)) (i : S100000.Idx) :
    IsReal (val_main_v36 (F := Ideal) x7 i) := by
  unfold val_main_v36
  refine isReal_scatterAdd _ _ _ _ (fun j => ?_) (fun j => ?_) i
  · rw [val_main_v34_apply, val_main_cst_8_apply]
    exact ⟨0, Ideal.ofBits_zero_f32⟩
  · rw [val_main_v33_apply, val_main_cst_7_apply]
    exact ⟨1, one_word⟩

/-- The clipped degree is a nonzero real, so the quotient by it is the product with its reciprocal. -/
theorem div_clip (s d : EReal) (hd : IsReal d) :
    Ideal.div s (max d (Ideal.ofBits .f32 0x3F800000#32)) = s * Spec.invClip d := by
  have e1 : Spec.one = 1 := one_word
  show Ideal.div s (max d Spec.one) = s * Ideal.div Spec.one (max d Spec.one)
  rw [e1]
  obtain ⟨r, hr, h⟩ := isReal_max_one d hd
  rw [h]
  exact Cert.LibERealSage.div_eq_mul_one_div s hr

theorem lidx_v42 (t : Fin 100000) (e k : Fin 64) : lidx_main_v42 (ix2 t e) k = ix2 t k :=
  funext fun a => Fin.ext (by match a with | ⟨0, _⟩ => rfl | ⟨1, _⟩ => rfl)
theorem ridx_v42 (t : Fin 100000) (e k : Fin 64) : ridx_main_v42 (ix2 t e) k = ix2 k e :=
  funext fun a => Fin.ext (by match a with | ⟨0, _⟩ => rfl | ⟨1, _⟩ => rfl)
theorem lidx_v43 (t : Fin 100000) (e k : Fin 64) : lidx_main_v43 (ix2 t e) k = ix2 t k :=
  funext fun a => Fin.ext (by match a with | ⟨0, _⟩ => rfl | ⟨1, _⟩ => rfl)
theorem ridx_v43 (t : Fin 100000) (e k : Fin 64) : ridx_main_v43 (ix2 t e) k = ix2 k e :=
  funext fun a => Fin.ext (by match a with | ⟨0, _⟩ => rfl | ⟨1, _⟩ => rfl)

theorem idx_v40 (t : Fin 100000) (k : Fin 64) : idx_main_v40 (ix2 t k) = ix2 t (0 : Fin 1) :=
  funext fun a => Fin.ext (by match a with | ⟨0, _⟩ => rfl | ⟨1, _⟩ => rfl)
theorem idx_v39 (t : Fin 100000) : idx_main_v39 (ix2 t (0 : Fin 1)) = ix1 t :=
  funext fun a => Fin.ext (by match a with | ⟨0, _⟩ => rfl)

theorem rows_eq (x0 : (⟨S100000x128, .f32⟩ : BufTy).Contents (Elt Ideal)) (x1 x2 : (⟨S128x64, .f32⟩ : BufTy).Contents (Elt Ideal))
    (x3 x4 : (⟨S64x64, .f32⟩ : BufTy).Contents (Elt Ideal)) (x6 x7 : (⟨S1600000, .i32⟩ : BufTy).Contents (Elt Ideal))
    (dcol : Spec.Arr 100000 1)
    (hd : ∀ n : Fin 100000, dcol (ix2 n 0) = val_main_v36 (F := Ideal) x7 (ix1 n))
    (t : Fin 100000) (e : Fin 64) :
    val_main_v44 (F := Ideal) x0 x1 x2 x3 x4 x6 x7 (ix2 t e)
      = Spec.layer2 (val_main_v22 (F := Ideal) x0 x1 x2 x6 x7) (val_main_v32 (F := Ideal) x0 x1 x2 x6 x7) dcol x3 x4 t e := by
  rw [val_main_v44_apply, val_main_v42_apply, val_main_v43_apply, Ideal.addf_def]
  unfold Spec.layer2 Spec.sagePre
  refine congrArg₂ (· + ·) ?_ ?_
  · refine Finset.sum_congr rfl fun k _ => ?_
    rw [lidx_v42, ridx_v42]
  · refine Finset.sum_congr rfl fun k _ => ?_
    rw [lidx_v43, ridx_v43, val_main_v41_apply, val_main_v40_apply, idx_v40, val_main_v39_apply, idx_v39,
      val_main_v38_apply, val_main_v37_apply, val_main_cst_9_apply, Ideal.hostDivf_def, Ideal.maximumf_def,
      Ideal.ofBits_def, hd t, div_clip _ _ (deg_real x7 _)]

theorem idx_v46 (t : Fin 100000) : idx_main_v46 (ix2 t (0 : Fin 1)) = ix1 t :=
  funext fun a => Fin.ext (by match a with | ⟨0, _⟩ => rfl)
theorem idx_v50 (t : Fin 100000) : idx_main_v50 (ix2 t (0 : Fin 1)) = ix1 t :=
  funext fun a => Fin.ext (by match a with | ⟨0, _⟩ => rfl)

/-- A scatter-add's guard on the destination word is the one-hot factor. -/
theorem guard_eq_hit (w : BitVec 32) (g : ℕ) (hg : g < 2 ^ 31) (y : EReal) :
    (if w.toInt = (g : Int) then y else 0) = Spec.hit w g * y := by
  unfold Spec.hit
  by_cases h : w = BitVec.ofNat 32 g
  · rw [if_pos h, if_pos ((toInt_eq_iff w g hg).mpr h), one_mul]
  · rw [if_neg h, if_neg (fun h' => h ((toInt_eq_iff w g hg).mp h')), zero_mul]

theorem pooled_eq (x0 : (⟨S100000x128, .f32⟩ : BufTy).Contents (Elt Ideal)) (x1 x2 : (⟨S128x64, .f32⟩ : BufTy).Contents (Elt Ideal))
    (x3 x4 : (⟨S64x64, .f32⟩ : BufTy).Contents (Elt Ideal)) (x6 x7 : (⟨S1600000, .i32⟩ : BufTy).Contents (Elt Ideal))
    (x8 : (⟨S100000, .i32⟩ : BufTy).Contents (Elt Ideal))
    (dcol : Spec.Arr 100000 1) (ncol : Spec.IArr 100000 1)
    (hd : ∀ n : Fin 100000, dcol (ix2 n 0) = val_main_v36 (F := Ideal) x7 (ix1 n))
    (hn : ∀ t : Fin 100000, ncol (ix2 t 0) = x8 (ix1 t))
    (g : Fin 1000) (e : Fin 64) :
    val_main_v47 (F := Ideal) x0 x1 x2 x3 x4 x6 x7 x8 (ix2 g e)
      = Spec.pooled (val_main_v22 (F := Ideal) x0 x1 x2 x6 x7) (val_main_v32 (F := Ideal) x0 x1 x2 x6 x7) dcol ncol x3 x4 g.val e := by
  unfold val_main_v47
  refine (Cert.ScatterRows.scatter_rows_apply scatter_S1000x64_S100000x1_S100000x64_1_0_0_1 rfl rfl rfl rfl _ _ _ g e).trans ?_
  rw [val_main_v45_apply, val_main_cst_10_apply, Ideal.ofBits_def, Ideal.ofBits_zero_f32, zero_add, Finset.sum_filter]
  unfold Spec.pooled
  refine Finset.sum_congr rfl fun t _ => ?_
  rw [val_main_v46_apply, idx_v46, ← hn t, rows_eq x0 x1 x2 x3 x4 x6 x7 dcol hd t e]
  exact guard_eq_hit _ _ (by have := g.isLt; omega) _

theorem count_eq (x8 : (⟨S100000, .i32⟩ : BufTy).Contents (Elt Ideal)) (ncol : Spec.IArr 100000 1)
    (hn : ∀ t : Fin 100000, ncol (ix2 t 0) = x8 (ix1 t)) (g : Fin 1000) :
    val_main_v51 (F := Ideal) x8 (ix1 g) = Spec.count ncol g.val := by
  unfold val_main_v51
  refine (Cert.ScatterVec.scatter_vec_apply scatter_S1000_S100000x1_S100000_n_0_0_1 rfl rfl rfl rfl _ _ _ g).trans ?_
  rw [val_main_v49_apply, val_main_cst_12_apply, Ideal.ofBits_def, Ideal.ofBits_zero_f32, zero_add, Finset.sum_filter]
  unfold Spec.count
  refine Finset.sum_congr rfl fun t _ => ?_
  rw [val_main_v50_apply, idx_v50, ← hn t, val_main_v48_apply, val_main_cst_11_apply, Ideal.ofBits_def, one_word]
  have e1 : Spec.oneB = 1 := oneB_word
  rw [e1]
  exact guard_eq_hit _ _ (by have := g.isLt; omega) _

theorem lidx_v57 (g : Fin 1000) (k : Fin 64) : lidx_main_v57 (ix2 g (0 : Fin 1)) k = ix2 g k :=
  funext fun a => Fin.ext (by match a with | ⟨0, _⟩ => rfl | ⟨1, _⟩ => rfl)
theorem ridx_v57 (g : Fin 1000) (k : Fin 64) : ridx_main_v57 (ix2 g (0 : Fin 1)) k = ix2 k (0 : Fin 1) :=
  funext fun a => Fin.ext (by match a with | ⟨0, _⟩ => rfl | ⟨1, _⟩ => rfl)

theorem idx_v55 (g : Fin 1000) (k : Fin 64) : idx_main_v55 (ix2 g k) = ix2 g (0 : Fin 1) :=
  funext fun a => Fin.ext (by match a with | ⟨0, _⟩ => rfl | ⟨1, _⟩ => rfl)
theorem idx_v54 (g : Fin 1000) : idx_main_v54 (ix2 g (0 : Fin 1)) = ix1 g :=
  funext fun a => Fin.ext (by match a with | ⟨0, _⟩ => rfl)

theorem logit_eq (x0 : (⟨S100000x128, .f32⟩ : BufTy).Contents (Elt Ideal)) (x1 x2 : (⟨S128x64, .f32⟩ : BufTy).Contents (Elt Ideal))
    (x3 x4 : (⟨S64x64, .f32⟩ : BufTy).Contents (Elt Ideal)) (x5 : (⟨S64x1, .f32⟩ : BufTy).Contents (Elt Ideal))
    (x6 x7 : (⟨S1600000, .i32⟩ : BufTy).Contents (Elt Ideal)) (x8 : (⟨S100000, .i32⟩ : BufTy).Contents (Elt Ideal))
    (dcol : Spec.Arr 100000 1) (ncol : Spec.IArr 100000 1)
    (hd : ∀ n : Fin 100000, dcol (ix2 n 0) = val_main_v36 (F := Ideal) x7 (ix1 n))
    (hn : ∀ t : Fin 100000, ncol (ix2 t 0) = x8 (ix1 t)) (g : Fin 1000) :
    val_main_v57 (F := Ideal) x0 x1 x2 x3 x4 x5 x6 x7 x8 (ix2 g 0)
      = ∑ e : Fin 64, Ideal.div
          (Spec.pooled (val_main_v22 (F := Ideal) x0 x1 x2 x6 x7) (val_main_v32 (F := Ideal) x0 x1 x2 x6 x7) dcol ncol x3 x4 g.val e)
          (max (Spec.count ncol g.val) Spec.one) * x5 (ix2 e 0) := by
  rw [val_main_v57_apply]
  refine Finset.sum_congr rfl fun k _ => ?_
  rw [lidx_v57, ridx_v57, val_main_v56_apply, val_main_v55_apply, idx_v55, val_main_v54_apply, idx_v54,
    val_main_v53_apply, val_main_v52_apply, val_main_cst_13_apply, Ideal.hostDivf_def, Ideal.maximumf_def,
    Ideal.ofBits_def, pooled_eq x0 x1 x2 x3 x4 x6 x7 x8 dcol ncol hd hn g k, count_eq x8 ncol hn g]

/-- The read-out of the reference's own stages is the reference's result, graph by graph. -/
theorem readout_eq (x0 : (⟨S100000x128, .f32⟩ : BufTy).Contents (Elt Ideal)) (x1 x2 : (⟨S128x64, .f32⟩ : BufTy).Contents (Elt Ideal))
    (x3 x4 : (⟨S64x64, .f32⟩ : BufTy).Contents (Elt Ideal)) (x5 : (⟨S64x1, .f32⟩ : BufTy).Contents (Elt Ideal))
    (x6 x7 : (⟨S1600000, .i32⟩ : BufTy).Contents (Elt Ideal)) (x8 : (⟨S100000, .i32⟩ : BufTy).Contents (Elt Ideal))
    (dcol : Spec.Arr 100000 1) (ncol : Spec.IArr 100000 1)
    (hd : ∀ n : Fin 100000, dcol (ix2 n 0) = Cert.ReferenceIdeal.Read.val_main_v36 (F := Ideal) x7 (ix1 n))
    (hn : ∀ t : Fin 100000, ncol (ix2 t 0) = x8 (ix1 t)) (g : Fin 1000) :
    Spec.readout (Cert.ReferenceIdeal.Read.val_main_v22 (F := Ideal) x0 x1 x2 x6 x7)
        (Cert.ReferenceIdeal.Read.val_main_v32 (F := Ideal) x0 x1 x2 x6 x7) dcol ncol x3 x4 x5 (ix2 ⟨g.val, by omega⟩ 0)
      = Cert.ReferenceIdeal.Read.val_main_v63 (F := Ideal) x0 x1 x2 x3 x4 x5 x6 x7 x8 (ix2 g 0) := by
  rw [Spec.readout_apply, val_main_v63_apply, val_main_v62_apply, val_main_cst_15_apply, val_main_v61_apply,
    val_main_v60_apply, val_main_cst_14_apply, val_main_v59_apply, val_main_v58_apply,
    logit_eq x0 x1 x2 x3 x4 x5 x6 x7 x8 dcol ncol hd hn g,
    Ideal.hostDivf_def, Ideal.addf_def, Ideal.hostUnary_exp_def, Ideal.hostNegf_def, Ideal.negf_def, Ideal.ofBits_def,
    one_word]
  rfl

end Cert.KernelIdeal.ReadoutBridge

end
-- ==== Proof.KIValue.lean ====
import proofs.«418009_j9234179686415_3_alg».proof.Proof.KIFrame
import proofs.«418009_j9234179686415_3_alg».proof.Proof.KIHost
import proofs.«418009_j9234179686415_3_alg».proof.Proof.KILayer1Arr
import proofs.«418009_j9234179686415_3_alg».proof.Proof.KILayer1Bridge
import proofs.«418009_j9234179686415_3_alg».proof.Proof.KIReadoutArr
import proofs.«418009_j9234179686415_3_alg».proof.Proof.KIReadoutBridge
import proofs.«418009_j9234179686415_3_alg».proof.Proof.Gen.ReferenceIdeal.Run
import proofs.«418009_j9234179686415_3_alg».proof.Proof.Gen.ReferenceIdeal.Read

noncomputable section

namespace Cert.KernelIdeal.Value

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)

theorem degcol (n : Fin 100000) : Host.kDegCol (a7 m c) (ix2 n 0) = Cert.ReferenceIdeal.Read.val_main_v13 (F := Ideal) (a7 m c) (ix1 n) :=
  (Host.kDegCol_apply (a7 m c) n).trans (congrFun (Host.kDeg_eq (a7 m c)) _)

/-- The first call's result array is the reference's first-layer activations. -/
theorem x1_eq : (Run.X1 (F := Ideal) Frame.R0 m c main_v17 : Spec.Arr 100000 64) = Cert.ReferenceIdeal.Read.val_main_v22 (F := Ideal) (a0 m c) (a1 m c) (a2 m c) (a6 m c) (a7 m c) := by
  have h := Layer1Arr.layer1_arr (Run.In0 m) c
  rw [show ((Region0.dat0 (F := Ideal) (Run.In0 m) c).arrAt 5 cfg0.N : Spec.Arr 100000 64) = Run.X1 Frame.R0 m c main_v17 from (Run.X1_arr Frame.R0 m c 5).symm] at h
  rw [h]
  show Spec.layer1 (Gen.V1 m c main_arg0) (Gen.V1 m c main_v16) (Gen.V1 m c main_v4) (Gen.V1 m c main_arg1) (Gen.V1 m c main_arg2) = _
  rw [Host.V1_arg0, Host.V1_arg1, Host.V1_arg2, Host.V1_v16, Host.V1_v4, Host.kS1_eq]
  exact Layer1Bridge.layer1_eq (a0 m c) (a1 m c) (a2 m c) (a6 m c) (a7 m c) (Host.kDegCol (a7 m c)) (degcol m c)

/-- The second call's result at a graph below 1000 is the reference's. -/
theorem out_eq (g : Fin 1000) :
    (Run.X3 (F := Ideal) Frame.R0 Frame.R1 m c main_v31 : Spec.Arr 1024 1) (ix2 ⟨g.val, by omega⟩ 0)
      = Cert.ReferenceIdeal.Read.val_main_v63 (F := Ideal) (a0 m c) (a1 m c) (a2 m c) (a3 m c) (a4 m c) (a5 m c) (a6 m c) (a7 m c) (a8 m c) (ix2 g 0) := by
  have h := ReadoutArr.readout_arr (Run.In1 Frame.R0 m) c
  rw [show ((Region1.dat1 (F := Ideal) (Run.In1 Frame.R0 m) c).arrAt 7 cfg1.N : Spec.Arr 1024 1) = Run.X3 Frame.R0 Frame.R1 m c main_v31 from (Run.X3_arr Frame.R0 Frame.R1 m c 7).symm] at h
  rw [h]
  show Spec.readout (Gen.V3 m (Run.outsA Frame.R0 m) c main_v17) (Gen.V3 m (Run.outsA Frame.R0 m) c main_v29) (Gen.V3 m (Run.outsA Frame.R0 m) c main_v4)
      (Gen.V3 m (Run.outsA Frame.R0 m) c main_v30) (Gen.V3 m (Run.outsA Frame.R0 m) c main_arg3) (Gen.V3 m (Run.outsA Frame.R0 m) c main_arg4)
      (Gen.V3 m (Run.outsA Frame.R0 m) c main_arg5) _ = _
  rw [Host.V3_v17, Host.V3_v29, Host.V3_v4, Host.V3_v30, Host.V3_arg3, Host.V3_arg4, Host.V3_arg5]
  rw [show Run.outsA (F := Ideal) Frame.R0 m 2 main_v17 c = Cert.ReferenceIdeal.Read.val_main_v22 (F := Ideal) (a0 m c) (a1 m c) (a2 m c) (a6 m c) (a7 m c) from x1_eq m c, Host.kS2_eq]
  exact ReadoutBridge.readout_eq (a0 m c) (a1 m c) (a2 m c) (a3 m c) (a4 m c) (a5 m c) (a6 m c) (a7 m c) (a8 m c) (Host.kDegCol (a7 m c)) (Host.kCol (a8 m c))
    (fun n => (degcol m c n).trans (congrFun (Host.v36_eq (a7 m c)).symm _)) (fun t => Host.kCol_apply (a8 m c) t) g

/-- The result buffer when the program returns is the reference's term of the nine arguments. -/
theorem result_eq : (Frame.Vend (F := Ideal) m c main_v32 : Spec.Arr 1000 1) = Cert.ReferenceIdeal.Read.val_main_v63 (F := Ideal) (a0 m c) (a1 m c) (a2 m c) (a3 m c) (a4 m c) (a5 m c) (a6 m c) (a7 m c) (a8 m c) := by
  funext i
  obtain ⟨g, u, rfl⟩ : ∃ (g : Fin 1000) (u : Fin 1), i = ix2 g u := ⟨i 0, i 1, eq_ix2 i⟩
  obtain rfl : u = 0 := Subsingleton.elim _ _
  exact (Host.V5_v32 m (Run.outs Frame.R0 Frame.R1 m) c g).trans (out_eq m c g)

end Cert.KernelIdeal.Value

end
-- ==== Proof.lean ====
import proofs.«418009_j9234179686415_3_alg».proof.Defs
import proofs.«418009_j9234179686415_3_alg».proof.Proof.Gen.Kernel
import proofs.«418009_j9234179686415_3_alg».proof.Proof.Gen.KernelIdeal
import proofs.«418009_j9234179686415_3_alg».proof.Proof.Gen.ReferenceIdeal
import proofs.«418009_j9234179686415_3_alg».proof.Proof.Gen.Pre_finite_inputs
import proofs.«418009_j9234179686415_3_alg».proof.Proof.Gen.ReferenceIdeal.Run
import proofs.«418009_j9234179686415_3_alg».proof.Proof.Gen.ReferenceIdeal.Read
import proofs.«418009_j9234179686415_3_alg».proof.Proof.KIFrame
import proofs.«418009_j9234179686415_3_alg».proof.Proof.KIValue
import Idealize.ShloMosaic.Lib.Tactic

noncomputable section

namespace Cert.Proof

open Idealize.ShloMosaic Idealize.ShloMosaic.TcCoe Idealize.SL.Sem Idealize.ShloMosaic.Tactic

theorem frame_kernelIdeal : Cert.frame_KernelIdeal := fun m ρ _ => Cert.KernelIdeal.Frame.frame (F := Ideal) m ρ

/-- The two printed kernel programs are one text, and the frame is proved at every float instance:
    the same proof, read at the other instance, is this program's frame. -/
theorem frame_kernel : Cert.frame_Kernel := fun m ρ _ =>
  Eq.mp (by sl_kernel_rfl) (Cert.KernelIdeal.Frame.frame (F := Bits) m ρ)

/-- A program of host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the reference's composed term of the nine arguments. -/
theorem algebraic : Cert.algebraic_KernelIdeal_ReferenceIdeal := by
  intro m ρ m' ρ' _ hagree
  refine ⟨fun c => Cert.KernelIdeal.Frame.Vend (F := Ideal) m c Cert.KernelIdeal.main_v32,
    Cert.KernelIdeal.Frame.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.KernelIdeal.Value.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
